-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x8192 : Shape := ⟨2, ![8192, 8192]⟩
abbrev S8192x256 : Shape := ⟨2, ![8192, 256]⟩
abbrev S_ : Shape := ⟨0, ![]⟩

class Facts : Prop where
  bcast_S_S8192x8192 : S_.BroadcastsInDim S8192x8192 (![] : Fin 0 → Fin S8192x8192.rank)
  reducesTo_S8192x8192_S_d0_1 : S8192x8192.ReducesTo [0, 1] S_
  h_S_ : 0 < S_.numel
  bcast_S_S8192x256 : S_.BroadcastsInDim S8192x256 (![] : Fin 0 → Fin S8192x256.rank)
  reducesTo_S8192x256_S_d0_1 : S8192x256.ReducesTo [0, 1] S_

variable [Facts]

def fn {F : FTy → Type} [FloatOps F] (main_arg0 : FVec F S8192x8192 .f32) (main_arg1 : FVec F S8192x8192 .f32) (main_arg2 : FVec F S8192x256 .f32) : IVec S_ 1 :=
  let main_v0 : FVec F S8192x8192 .f32 := Host.absf main_arg0
  let main_cst : FVec F S_ .f32 := constant S_ .f32 0x7F800000#32
  let main_v1 : FVec F S8192x8192 .f32 := broadcastInDim S8192x8192 ![] bcast_S_S8192x8192 main_cst
  let main_v2 : IVec S8192x8192 1 := cmpf .olt main_v0 main_v1
  let main_c : IVec S_ 1 := constantI S_ 1 1#1
  let main_v3 : IVec S_ 1 := (fun x v => Host.reduce IntOp.andi x v reducesTo_S8192x8192_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S8192x256 .f32 := Host.absf main_arg2
  let main_cst_2 : FVec F S_ .f32 := constant S_ .f32 0x7F800000#32
  let main_v10 : FVec F S8192x256 .f32 := broadcastInDim S8192x256 ![] bcast_S_S8192x256 main_cst_2
  let main_v11 : IVec S8192x256 1 := cmpf .olt main_v9 main_v10
  let main_c_3 : IVec S_ 1 := constantI S_ 1 1#1
  let main_v12 : IVec S_ 1 := (fun x v => Host.reduce IntOp.andi x v reducesTo_S8192x256_S_d0_1 h_S_) main_v11 main_c_3
  let main_v13 : IVec S_ 1 := andi main_v8 main_v12
  main_v13
-- ==== Kernel.lean ====
abbrev S8192x8192 : Shape := ⟨2, ![8192, 8192]⟩
abbrev S8192x256 : Shape := ⟨2, ![8192, 256]⟩
abbrev S1024x1024 : Shape := ⟨2, ![1024, 1024]⟩
abbrev S1024x256 : Shape := ⟨2, ![1024, 256]⟩

abbrev nBuf : Space → Nat
  | .hbm => 6
  | .vmem => 21
  | .smem => 0
  | _ => 0

abbrev bufTy : (tb : Table) → Fin (tcTables nBuf tb) → BufTy
  | .hbm, ⟨0, _⟩ => ⟨S8192x8192, .f32⟩
  | .hbm, ⟨1, _⟩ => ⟨S8192x8192, .f32⟩
  | .hbm, ⟨2, _⟩ => ⟨S8192x256, .f32⟩
  | .hbm, ⟨3, _⟩ => ⟨S8192x8192, .bf16⟩
  | .hbm, ⟨4, _⟩ => ⟨S8192x256, .bf16⟩
  | .hbm, ⟨5, _⟩ => ⟨S8192x256, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | .local _ .vmem, ⟨7, _⟩ => ⟨S1024x1024, .bf16⟩
  | .local _ .vmem, ⟨8, _⟩ => ⟨S1024x1024, .bf16⟩
  | .local _ .vmem, ⟨9, _⟩ => ⟨S1024x256, .f32⟩
  | .local _ .vmem, ⟨10, _⟩ => ⟨S1024x256, .f32⟩
  | .local _ .vmem, ⟨11, _⟩ => ⟨S1024x256, .bf16⟩
  | .local _ .vmem, ⟨12, _⟩ => ⟨S1024x256, .bf16⟩
  | .local _ .vmem, ⟨13, _⟩ => ⟨S1024x256, .f32⟩
  | .local _ .vmem, ⟨14, _⟩ => ⟨S1024x1024, .bf16⟩
  | .local _ .vmem, ⟨15, _⟩ => ⟨S1024x1024, .bf16⟩
  | .local _ .vmem, ⟨16, _⟩ => ⟨S1024x256, .bf16⟩
  | .local _ .vmem, ⟨17, _⟩ => ⟨S1024x256, .bf16⟩
  | .local _ .vmem, ⟨18, _⟩ => ⟨S1024x256, .f32⟩
  | .local _ .vmem, ⟨19, _⟩ => ⟨S1024x256, .f32⟩
  | .local _ .vmem, ⟨20, _⟩ => ⟨S1024x256, .f32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_scratch0 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc2_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17

abbrev nD : Nat := 1
abbrev τ : Topo := Topo.v7x

variable {F : FTy → Type} [FloatOps F]

abbrev grid0 : Pipeline.Grid := ⟨3, ![8, 8, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨2, ![8, 8], ![false, false]⟩

def k1_cond2 (i : grid1.Coords) : BitVec 1 :=
  let arg1 : BitVec 32 := BitVec.ofNat 32 (i 1).val
  let c7_i32 : BitVec 32 := 7#32
  let v14 : BitVec 1 := Scalar.cmpi .eq arg1 c7_i32
  let v15 : BitVec 32 := Scalar.extui v14
  let c0_i32_8 : BitVec 32 := 0#32
  let v16 : BitVec 1 := Scalar.cmpi .ne v15 c0_i32_8
  v16

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1024x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x256 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev grid2 : Pipeline.Grid := ⟨2, ![8, 8], ![false, false]⟩

def k2_cond2 (i : grid2.Coords) : BitVec 1 :=
  let arg1 : BitVec 32 := BitVec.ofNat 32 (i 1).val
  let c7_i32 : BitVec 32 := 7#32
  let v13 : BitVec 1 := Scalar.cmpi .eq arg1 c7_i32
  let v14 : BitVec 32 := Scalar.extui v13
  let c0_i32_8 : BitVec 32 := 0#32
  let v15 : BitVec 1 := Scalar.cmpi .ne v14 c0_i32_8
  v15

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S1024x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1024x256 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1024x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

class Facts₀ : Prop where
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  bitsLt_bf16_f32 : FTy.bits .bf16 < FTy.bits .f32
  packedbf16_S1024x1024_S1024x1024_0_0 : (Rect.unit (s := S1024x1024) ![0, 0] S1024x1024.size inb_S1024x1024_S1024x1024_0_0).PackedRows (EltTy.packing .bf16)
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  transposes_S1024x1024_p1_0_S1024x1024 : S1024x1024.Transposes [1, 0] S1024x1024
  packedbf16_S1024x256_S1024x256_0_0 : (Rect.unit (s := S1024x256) ![0, 0] S1024x256.size inb_S1024x256_S1024x256_0_0).PackedRows (EltTy.packing .bf16)
  dot_S1024x1024_S1024x1024_S1024x1024_1_0_0_1_n_n_wf : DotDims.WF S1024x1024 S1024x1024 S1024x1024 [1] [0] [0] [1] [] []
  dot_S1024x1024_S1024x256_S1024x256_1_0_0_1_n_n_wf : DotDims.WF S1024x1024 S1024x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x8192.size a
  hwx0_0 : ∀ i : grid0.Coords, EltTy.bits .f32 = 32 ∨ (Rect.block (s := S8192x8192) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S8192x8192.size a
  hwx0_1 : ∀ i : grid0.Coords, EltTy.bits .f32 = 32 ∨ (Rect.block (s := S8192x8192) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S8192x8192.size a
  hwx0_2 : ∀ i : grid0.Coords, EltTy.bits .bf16 = 32 ∨ (Rect.block (s := S8192x8192) S1024x1024.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S8192x8192.size a
  hwx1_0 : ∀ i : grid1.Coords, EltTy.bits .bf16 = 32 ∨ (Rect.block (s := S8192x8192) S1024x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x256.size a ≤ S8192x256.size a
  hwx1_1 : ∀ i : grid1.Coords, EltTy.bits .f32 = 32 ∨ (Rect.block (s := S8192x256) S1024x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x256.size a ≤ S8192x256.size a
  hwx1_2 : ∀ i : grid1.Coords, EltTy.bits .bf16 = 32 ∨ (Rect.block (s := S8192x256) S1024x256.size (cc1_transform_2 i) (hinb1_2 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1024.size a ≤ S8192x8192.size a
  hwx2_0 : ∀ i : grid2.Coords, EltTy.bits .bf16 = 32 ∨ (Rect.block (s := S8192x8192) S1024x1024.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x256.size a ≤ S8192x256.size a
  hwx2_1 : ∀ i : grid2.Coords, EltTy.bits .bf16 = 32 ∨ (Rect.block (s := S8192x256) S1024x256.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x256.size a ≤ S8192x256.size a
  hwx2_2 : ∀ i : grid2.Coords, EltTy.bits .f32 = 32 ∨ (Rect.block (s := S8192x256) S1024x256.size (cc2_transform_2 i) (hinb2_2 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S1024x1024_S1024x256_S1024x256_1_0_0_1_n_n : DotDims S1024x1024 S1024x256 S1024x256 where
  lhsContracting := [1]
  rhsContracting := [0]
  lhsNonContracting := [0]
  rhsNonContracting := [1]
  lhsBatch := []
  rhsBatch := []
  wf := dot_S1024x1024_S1024x256_S1024x256_1_0_0_1_n_n_wf

abbrev win0_0 : Pipeline.Window sig grid0 :=
  Pipeline.Window.ofSpec (Memref.whole main_arg1) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v0) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S1024x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1024x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

abbrev win2_0 : Pipeline.Window sig grid2 :=
  Pipeline.Window.ofSpec (Memref.whole main_v0) S1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v1) S1024x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v2) S1024x256.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev idle2 : Fin 3 → grid2.Coords → Bool := fun | 0 => fun _ => false | 1 => fun _ => false | 2 => fun i => !(k2_cond2 i == 1#1) | ⟨_ + 3, h⟩ => absurd h (Nat.not_lt.2 (Nat.le_add_left _ _))

class Facts : Prop extends Facts₀ where

variable [Facts]
-- ==== ReferenceIdeal.lean ====
abbrev S8192x8192 : Shape := ⟨2, ![8192, 8192]⟩
abbrev S8192x256 : Shape := ⟨2, ![8192, 256]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x8192, .f32⟩
  | .hbm, ⟨2, _⟩ => ⟨S8192x256, .f32⟩
  | .hbm, ⟨3, _⟩ => ⟨S8192x8192, .f32⟩
  | .hbm, ⟨4, _⟩ => ⟨S8192x8192, .f32⟩
  | .hbm, ⟨5, _⟩ => ⟨S8192x256, .f32⟩
  | .hbm, ⟨6, _⟩ => ⟨S8192x256, .f32⟩
  | .hbm, ⟨7, _⟩ => ⟨S_, .f32⟩
  | .hbm, ⟨8, _⟩ => ⟨S8192x256, .f32⟩
  | .hbm, ⟨9, _⟩ => ⟨S8192x256, .i1⟩
  | .hbm, ⟨10, _⟩ => ⟨S_, .f32⟩
  | .hbm, ⟨11, _⟩ => ⟨S8192x256, .f32⟩
  | .hbm, ⟨12, _⟩ => ⟨S8192x256, .f32⟩
  | .hbm, ⟨13, _⟩ => ⟨S8192x256, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]

class Facts₀ : Prop where
  transposes_S8192x8192_S8192x8192_1_0 : S8192x8192.Transposes [1, 0] S8192x8192
  bcast_S_S8192x256 : S_.BroadcastsInDim S8192x256 (![] : Fin 0 → Fin S8192x256.rank)
  dot_S8192x8192_S8192x8192_S8192x8192_1_0_0_1_n_n_wf : DotDims.WF S8192x8192 S8192x8192 S8192x8192 [1] [0] [0] [1] [] []
  dot_S8192x8192_S8192x256_S8192x256_1_0_0_1_n_n_wf : DotDims.WF S8192x8192 S8192x256 S8192x256 [1] [0] [0] [1] [] []

variable [Facts₀]

def dot_S8192x8192_S8192x8192_S8192x8192_1_0_0_1_n_n : DotDims S8192x8192 S8192x8192 S8192x8192 where
  lhsContracting := [1]
  rhsContracting := [0]
  lhsNonContracting := [0]
  rhsNonContracting := [1]
  lhsBatch := []
  rhsBatch := []
  wf := dot_S8192x8192_S8192x8192_S8192x8192_1_0_0_1_n_n_wf
def dot_S8192x8192_S8192x256_S8192x256_1_0_0_1_n_n : DotDims S8192x8192 S8192x256 S8192x256 where
  lhsContracting := [1]
  rhsContracting := [0]
  lhsNonContracting := [0]
  rhsNonContracting := [1]
  lhsBatch := []
  rhsBatch := []
  wf := dot_S8192x8192_S8192x256_S8192x256_1_0_0_1_n_n_wf

class Facts : Prop extends Facts₀ where

variable [Facts]
-- ==== Proof.Kernel.R0Runs.lean ====
import proofs.«154173_j9740985828005_1_alg».proof.Proof.Gen.Kernel.Launch
import proofs.«154173_j9740985828005_1_alg».proof.Proof.Gen.Kernel.Skeleton
import proofs.«154173_j9740985828005_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The part of array `w` that grid point `t` works on. -/
def iblk0 (V : (c : Dev nD) → (b : Ref sig .tc) → Buf (Elt F) ((c : Thread nD τ).loc b)) (c : Dev nD) (w : Fin cfg0.W) (t : Fin cfg0.N) :
    ((cfg0.win w).xblock (cfg0.grid.coords t)).Idx → Elt F (cfg0.win w).elt :=
  ((cfg0.win w).blk t).view.read (Elt F) (V c (Pipeline.arrRef spec0 w))

/-- The body's two tests on the position `k` along the contracted axis, `k = 0` and `k = 7`; `k` is the point modulo 8. -/
abbrev cond0_0 (i : grid0.Coords) : Prop := (Scalar.cmpi .ne (Scalar.extui (Scalar.cmpi .eq (BitVec.ofNat 32 (i 2).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

/-- Only the points with `k = 7` produce an output block. -/
theorem idle0 : ∀ t : Fin cfg0.N, cfg0.idle 0 (grid0.coords t) = false ∧ cfg0.idle 1 (grid0.coords t) = false
    ∧ (cfg0.idle 2 (grid0.coords t) = true ↔ ¬t.val % 8 = 7) := by decide +kernel

abbrev ms0_0 (t : Fin cfg0.N) : Memref sig .tc .vmem S1024x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1024 .bf16 := win0_2.stage (cfg0.slots t 2)
abbrev hs0_2 (t : Fin cfg0.N) : (ms0_2 t).IsWhole := hstage0_2 ((cfg0.slots t 2).cast nbuf0_2)
abbrev scM0 : Memref sig .tc .vmem S1024x1024 .f32 := Memref.whole cc0_scratch0

abbrev rest0 (c : Dev nD) : sProp 𝕄 :=
  Pipeline.scopedRestBut (Ix := Unit) (Name := ℕ) (U := UR sig nD τ) (Lvl := ℕ) (Val := Elt F) spec0 c [cc0_scratch0]

theorem PhiA0_eq (c : Dev nD) :
    (Pipeline.ΦA spec0 c : sProp 𝕄)
      = iprop(iprop((∃ d, owns (c : Thread nD τ) scM0 fullShare d) ∗ rest0 c) ∗ (∃ r, prngReg c r)) := by
  unfold Pipeline.ΦA
  rw [Pipeline.scopedRest_split_of_list spec0 c [cc0_scratch0] (by decide) (by decide)]
  simp only [scM0, owns_whole, bigSepL_singleton]; try rfl

/-- The accumulator's update by a point's two blocks. -/
abbrev upd0 (x0 : Vec F S1024x1024 .f32) (x1 : Vec F S1024x1024 .f32) (xs0 : Vec F S1024x1024 .f32) : Vec F S1024x1024 .f32 := k0_pay2 x0 x1 xs0

section Body

variable (c : Dev nD) (i : grid0.Coords) (a0 : Memref sig .tc .vmem S1024x1024 .f32) (h0 : a0.IsWhole) (a1 : Memref sig .tc .vmem S1024x1024 .f32) (h1 : a1.IsWhole)
  (a2 : Memref sig .tc .vmem S1024x1024 .bf16) (h2 : a2.IsWhole) (a3 : Memref sig .tc .vmem S1024x1024 .f32) (h3 : a3.IsWhole)
  (x0 : Vec F S1024x1024 .f32) (x1 : Vec F S1024x1024 .f32)

/-- What a run of the body shows: from the blocks `x0`, `x1`, the output's buffer at `xi2` and the accumulator as `S` says, it ends with the
    inputs as found, the output's buffer as `X xi2` says and the accumulator as the stores `LS` leave it. -/
abbrev BodyRun0 (S : sProp 𝕄) (X : Vec F S1024x1024 .bf16 → sProp 𝕄) (LS : List (View.Piece (Elt F) S1024x1024 .f32)) : Prop :=
  ∀ (xi2 : Vec F S1024x1024 .bf16) (K : PUnit → sProp 𝕄),
    iprop(owns (c : Thread nD τ) a0 fullShare x0 ∗ owns (c : Thread nD τ) a1 fullShare x1 ∗ owns (c : Thread nD τ) a2 fullShare xi2 ∗ S
        ∗ (iprop(owns (c : Thread nD τ) a0 fullShare x0 ∗ owns (c : Thread nD τ) a1 fullShare x1 ∗ X xi2
            ∗ (∃ f, a3.view.loc (c : Thread nD τ) ↦[a3.view.set]{fullShare} a3.view.writes (Elt F) f LS)) -∗ K ⟨⟩))
      ⊢ wp frame (wpE (defs₀ (F := F)) Variants.none c none) Set.univ (cc0__mm1_kernel i a0 h0 a1 h1 a2 h2 a3 h3) K

/-- `k = 0`: the accumulator may hold anything; the body zeroes it and adds the blocks' product. -/
def kernelRun0_A (hc0 : cond0_0 i) (hc1 : ¬cond0_1 i) :
    { LS0 // BodyRun0 c i a0 h0 a1 h1 a2 h2 a3 h3 x0 x1 iprop(∃ d, owns (c : Thread nD τ) a3 fullShare d) (owns (c : Thread nD τ) a2 fullShare) LS0 } := by
  refine ⟨?_, fun xi2 K => ?run⟩
  case run =>
    simp only [cc0__mm1_kernel_eq_skeleton]; unfold cc0__mm1_kernel_skel
    unfold owns
    iintro ⟨⟨%f0, %hf0, H0⟩, ⟨%f1, %hf1, H1⟩, ⟨%f2, %hf2, H2⟩, ⟨%ds0, %fs0, -, HS0⟩, Hk⟩
    obtain rfl := h0.eq_unread hf0; obtain rfl := h1.eq_unread hf1; obtain rfl := h2.eq_unread hf2
    sl_exec (disch := first | exact hc0 | exact hc1)
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    iexists _; iexact HS0

/-- `0 < k < 7`: the accumulator holds `xs0`; the body adds the blocks' product. -/
def kernelRun0_B (hc0 : ¬cond0_0 i) (hc1 : ¬cond0_1 i) (xs0 : Vec F S1024x1024 .f32) :
    { LS0 // BodyRun0 c i a0 h0 a1 h1 a2 h2 a3 h3 x0 x1 (owns (c : Thread nD τ) a3 fullShare xs0) (owns (c : Thread nD τ) a2 fullShare) LS0 } := by
  refine ⟨?_, fun xi2 K => ?run⟩
  case run =>
    simp only [cc0__mm1_kernel_eq_skeleton]; unfold cc0__mm1_kernel_skel
    unfold owns
    iintro ⟨⟨%f0, %hf0, H0⟩, ⟨%f1, %hf1, H1⟩, ⟨%f2, %hf2, H2⟩, ⟨%fs0, %hfs0, HS0⟩, Hk⟩
    obtain rfl := h0.eq_unread hf0; obtain rfl := h1.eq_unread hf1; obtain rfl := h2.eq_unread hf2; obtain rfl := h3.eq_unread hfs0
    sl_exec (disch := first | exact hc0 | exact hc1)
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    iexists _; iexact HS0

/-- `k = 7`: the body adds the blocks' product to `xs0` and stores the accumulator into the output's buffer. -/
def kernelRun0_C (hc0 : ¬cond0_0 i) (hc1 : cond0_1 i) (xs0 : Vec F S1024x1024 .f32) :
    Σ' (L2 : List (View.Piece (Elt F) S1024x1024 .bf16)), { LS0 // BodyRun0 c i a0 h0 a1 h1 a2 h2 a3 h3 x0 x1 (owns (c : Thread nD τ) a3 fullShare xs0)
      (fun _ => iprop(∃ f, a2.view.loc (c : Thread nD τ) ↦[a2.view.set]{fullShare} a2.view.writes (Elt F) f L2)) LS0 } := by
  refine ⟨?_, ?_, fun xi2 K => ?run⟩
  case run =>
    simp only [cc0__mm1_kernel_eq_skeleton]; unfold cc0__mm1_kernel_skel
    unfold owns
    iintro ⟨⟨%f0, %hf0, H0⟩, ⟨%f1, %hf1, H1⟩, ⟨%f2, -, H2⟩, ⟨%fs0, %hfs0, HS0⟩, Hk⟩
    obtain rfl := h0.eq_unread hf0; obtain rfl := h1.eq_unread hf1; obtain rfl := h3.eq_unread hfs0
    sl_exec (disch := first | exact hc0 | exact hc1)
    sl_step
    iapply Hk
    isplitl [H0]
    · iexists _; isplitr; · ipureintro; exact h0.read_unread _
      iexact H0
    isplitl [H1]
    · iexists _; isplitr; · ipureintro; exact h1.read_unread _
      iexact H1
    isplitl [H2]; · iexists _; iexact H2
    iexists _; iexact HS0

end Body

end Cert.Kernel.Fr

end
-- ==== Proof.Sep.lean ====
import Idealize.ShloMosaic.Lib.Memref

noncomputable section

namespace Cert.Sep

open Idealize.ShloMosaic
open Idealize.SL
open Idealize.SL.BI (sProp)
open scoped Idealize.SL.BI
open Idealize.SL.BI.BIBase Idealize.SL.BI.Laws Idealize.SL.ProofMode
open Idealize.SL.RA

variable {nD : Nat} {τ : Topo} {sig : RefSig} {Val : EltTy → Type}
variable {Ix : Type} [DecidableEq Ix] {Name : Type} [DecidableEq Name] {U : Type} [URA U] {Lvl : Type}

local notation "𝕄" => MT nD τ sig Ix Val Name U Lvl

/-- The origin of a rank-2 block. -/
theorem origin2 : (![0, 0] : Fin 2 → Nat) = fun _ => 0 := funext fun a => by fin_cases a <;> rfl

/-- A memref whose contents after a list of stores read `X` whatever it held before is owned at `X`. -/
theorem owns_of_writes (c : Thread nD τ) {sp : Space} {sh : Shape} {e : EltTy} (m : Memref sig c.2.kind sp sh e) (q : PosShare TreeShare)
    (L : List (View.Piece Val sh e)) (X : sh.Idx → Val e) (h : ∀ f, m.view.read Val (m.view.writes Val f L) = X) :
    (iprop(∃ f, m.view.loc c ↦[m.view.set]{q} m.view.writes Val f L) : sProp 𝕄) ⊢ owns c m q X := by
  unfold owns
  iintro ⟨%f, H⟩
  iexists _; isplitr
  · ipureintro; exact h f
  · iexact H

/-- A call `W` that takes two inputs, an output and an accumulator and hands all four back, run inside a larger state:
    the accumulator sits in a nested invariant beside `R` and `G`, `O` rides along, and what is handed back may be weakened. -/
theorem call_framed {W : (PUnit → sProp 𝕄) → sProp 𝕄} {D0 D1 D2 : Type} {I0 I1 S Sk Sr S' R G O X' : sProp 𝕄} {X Xr : D2 → sProp 𝕄}
    (hW : ∀ d K, iprop(I0 ∗ I1 ∗ X d ∗ Sk ∗ (iprop(I0 ∗ I1 ∗ Xr d ∗ Sr) -∗ K ⟨⟩)) ⊢ W K)
    (hS : S ⊢ Sk) (hS' : Sr ⊢ S') (hX' : ∀ d, Xr d ⊢ X') :
    iprop(iprop(iprop(S ∗ R) ∗ G) ∗ O ∗ (∃ _ : D0, I0) ∗ (∃ _ : D1, I1) ∗ ∃ d, X d)
      ⊢ W fun _ => iprop(iprop(iprop(S' ∗ R) ∗ G) ∗ O ∗ I0 ∗ I1 ∗ X') := by
  iintro ⟨⟨⟨HS, HR⟩, HG⟩, HO, ⟨%d0, H0⟩, ⟨%d1, H1⟩, ⟨%d, HX⟩⟩
  iapply hW d
  isplitl [H0]; · iexact H0
  isplitl [H1]; · iexact H1
  isplitl [HX]; · iexact HX
  isplitl [HS]; · iapply hS; iexact HS
  iintro ⟨H0, H1, HX, HS⟩
  isplitl [HS HR HG]
  · isplitl [HS HR]
    · isplitl [HS]; · iapply hS'; iexact HS
      iexact HR
    iexact HG
  isplitl [HO]; · iexact HO
  isplitl [H0]; · iexact H0
  isplitl [H1]; · iexact H1
  iapply hX' d; iexact HX

end Cert.Sep

end
-- ==== Proof.Kernel.R0Frame.lean ====
import proofs.«154173_j9740985828005_1_alg».proof.Proof.Kernel.R0Runs
import proofs.«154173_j9740985828005_1_alg».proof.Proof.Sep
import Idealize.ShloMosaic.Lib.Pipeline.Value

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Sep

section Pieces

variable (c : Dev nD) (i : grid0.Coords) (a0 : Memref sig .tc .vmem S1024x1024 .f32) (h0 : a0.IsWhole) (a1 : Memref sig .tc .vmem S1024x1024 .f32) (h1 : a1.IsWhole)
  (a2 : Memref sig .tc .vmem S1024x1024 .bf16) (h2 : a2.IsWhole) (a3 : Memref sig .tc .vmem S1024x1024 .f32) (h3 : a3.IsWhole)
  (x0 : Vec F S1024x1024 .f32) (x1 : Vec F S1024x1024 .f32)

/-- At `k = 0` the stores leave the update of the zero block in the accumulator. -/
theorem accA0 (hc0 : cond0_0 i) (hc1 : ¬cond0_1 i) (f : a3.view.ty.Contents (Elt F)) :
    a3.view.read (Elt F) (a3.view.writes (Elt F) f (kernelRun0_A c i a0 h0 a1 h1 a2 h2 a3 h3 x0 x1 hc0 hc1).1) = upd0 x0 x1 k0_pay1 := by
  rw [View.read_writes_eq_canon _ _ _ fun y => View.cover_of_tiledL (kernelRun0_A c i a0 h0 a1 h1 a2 h2 a3 h3 x0 x1 hc0 hc1).1 S1024x1024.size (by sl_kernel_rfl) y]
  unfold kernelRun0_A upd0
  dsimp only
  sl_unfold_words
  rw [View.canon_cons_unit_zero (S := S1024x1024) origin2]
  simp only [View.readAt_eq_ld, h0.read_unread, h1.read_unread, h3.read_unread, View.ld_unit_zero (S := S1024x1024) origin2, View.ld_unit_zero (S := S1024x1024) origin2, View.ld_unit_zero (S := S1024x1024) origin2, View.readCov_unit_zero (S := S1024x1024) _ origin2]

/-- At `0 < k < 7` they leave the update of what it held. -/
theorem accB0 (hc0 : ¬cond0_0 i) (hc1 : ¬cond0_1 i) (xs0 : Vec F S1024x1024 .f32) (f : a3.view.ty.Contents (Elt F)) :
    a3.view.read (Elt F) (a3.view.writes (Elt F) f (kernelRun0_B c i a0 h0 a1 h1 a2 h2 a3 h3 x0 x1 hc0 hc1 xs0).1) = upd0 x0 x1 xs0 := by
  rw [View.read_writes_eq_canon _ _ _ fun y => View.cover_of_tiledL (kernelRun0_B c i a0 h0 a1 h1 a2 h2 a3 h3 x0 x1 hc0 hc1 xs0).1 S1024x1024.size (by sl_kernel_rfl) y]
  unfold kernelRun0_B upd0
  dsimp only
  sl_unfold_words
  rw [View.canon_unit_zero origin2]
  simp only [View.readAt_eq_ld, h0.read_unread, h1.read_unread, h3.read_unread, View.ld_unit_zero (S := S1024x1024) origin2, View.ld_unit_zero (S := S1024x1024) origin2, View.ld_unit_zero (S := S1024x1024) origin2]

/-- At `k = 7` the same, -/
theorem accC0 (hc0 : ¬cond0_0 i) (hc1 : cond0_1 i) (xs0 : Vec F S1024x1024 .f32) (f : a3.view.ty.Contents (Elt F)) :
    a3.view.read (Elt F) (a3.view.writes (Elt F) f (kernelRun0_C c i a0 h0 a1 h1 a2 h2 a3 h3 x0 x1 hc0 hc1 xs0).2.1) = upd0 x0 x1 xs0 := by
  rw [View.read_writes_eq_canon _ _ _ fun y => View.cover_of_tiledL (kernelRun0_C c i a0 h0 a1 h1 a2 h2 a3 h3 x0 x1 hc0 hc1 xs0).2.1 S1024x1024.size (by sl_kernel_rfl) y]
  unfold kernelRun0_C upd0
  dsimp only
  sl_unfold_words
  rw [View.canon_unit_zero origin2]
  simp only [View.readAt_eq_ld, h0.read_unread, h1.read_unread, h3.read_unread, View.ld_unit_zero (S := S1024x1024) origin2, View.ld_unit_zero (S := S1024x1024) origin2, View.ld_unit_zero (S := S1024x1024) origin2]

/-- and the output block is the updated accumulator through the body's last operation. -/
theorem outC0 (hc0 : ¬cond0_0 i) (hc1 : cond0_1 i) (xs0 : Vec F S1024x1024 .f32) (f : a2.view.ty.Contents (Elt F)) :
    a2.view.read (Elt F) (a2.view.writes (Elt F) f (kernelRun0_C c i a0 h0 a1 h1 a2 h2 a3 h3 x0 x1 hc0 hc1 xs0).1) = k0_pay3 (upd0 x0 x1 xs0) := by
  rw [View.read_writes_eq_canon _ _ _ fun y => View.cover_of_tiledL (kernelRun0_C c i a0 h0 a1 h1 a2 h2 a3 h3 x0 x1 hc0 hc1 xs0).1 S1024x1024.size (by sl_kernel_rfl) y]
  unfold kernelRun0_C upd0
  dsimp only
  sl_unfold_words
  rw [View.canon_unit_zero origin2]
  simp only [View.readAt_eq_ld, h0.read_unread, h1.read_unread, h3.read_unread, View.ld_unit_zero (S := S1024x1024) origin2, View.ld_unit_zero (S := S1024x1024) origin2, View.ld_unit_zero (S := S1024x1024) origin2, View.readCov_unit_zero (S := S1024x1024) _ origin2]

end Pieces

variable (V : (c : Dev nD) → (b : Ref sig .tc) → Buf (Elt F) ((c : Thread nD τ).loc b)) (c : Dev nD)

abbrev xa0 (t : Fin cfg0.N) : Vec F S1024x1024 .f32 := iblk0 V c 0 t
abbrev xb0 (t : Fin cfg0.N) : Vec F S1024x1024 .f32 := iblk0 V c 1 t

/-- The accumulator after point `n`: the update, by the point's blocks, of zero where `n ≡ 0 (mod 8)` and else of what the point before left. -/
def acc0 : (n : ℕ) → n < cfg0.N → Vec F S1024x1024 .f32
  | 0, hn => upd0 (xa0 V c ⟨0, hn⟩) (xb0 V c ⟨0, hn⟩) k0_pay1
  | n + 1, hn => upd0 (xa0 V c ⟨n + 1, hn⟩) (xb0 V c ⟨n + 1, hn⟩) (if (n + 1) % 8 = 0 then k0_pay1 else acc0 n (Nat.lt_of_succ_lt hn))

theorem acc0_first (t : Fin cfg0.N) (h : t.val % 8 = 0) : acc0 V c t.val t.isLt = upd0 (xa0 V c t) (xb0 V c t) k0_pay1 := by
  obtain ⟨_ | n, hn⟩ := t
  · rfl
  · exact congrArg _ (if_pos h)

theorem acc0_next (t : Fin cfg0.N) (h : ¬t.val % 8 = 0) :
    acc0 V c t.val t.isLt = upd0 (xa0 V c t) (xb0 V c t) (acc0 V c (t.val - 1) (Nat.lt_of_le_of_lt (Nat.sub_le _ _) t.isLt)) := by
  obtain ⟨_ | n, hn⟩ := t
  · exact absurd (Nat.zero_mod _) h
  · exact congrArg _ (if_neg h)

/-- Before point `n` the accumulator holds what point `n - 1` left, or anything before the first point. -/
def PhiS0 : (n : ℕ) → n ≤ cfg0.N → sProp 𝕄
  | 0, _ => Pipeline.ΦA spec0 c
  | n + 1, hn => iprop(iprop(owns (c : Thread nD τ) scM0 fullShare (acc0 V c n hn) ∗ rest0 c) ∗ (∃ r, prngReg c r))

theorem PhiS0_pos (n : ℕ) (h : n ≤ cfg0.N) (hz : n ≠ 0) :
    PhiS0 V c n h = iprop(iprop(owns (c : Thread nD τ) scM0 fullShare (acc0 V c (n - 1) (by omega)) ∗ rest0 c) ∗ (∃ r, prngReg c r)) := by
  cases n with
  | zero => exact absurd rfl hz
  | succ n => rfl

theorem PhiS0_le : ∀ (n : ℕ) (h : n ≤ cfg0.N), PhiS0 V c n h ⊢ Pipeline.ΦA spec0 c
  | 0, _ => .rfl
  | n + 1, h => by
    rw [PhiA0_eq]
    exact sep_mono (sep_mono (BIClass.exists_intro (Φ := fun d => owns (c : Thread nD τ) scM0 fullShare d) _) .rfl) .rfl

def dat0 : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay3 (acc0 V c t.val t.isLt)
  Φ t := PhiS0 V c t.val (Nat.le_of_lt_succ t.isLt)
  q _ := fullShare
  owed _ := 0

theorem A_eq0 (w : Fin cfg0.W) : (dat0 V c).A w = V c (Pipeline.arrRef spec0 w) := rfl

theorem after0_2 (t : Fin cfg0.N) : (dat0 V c).after 2 t = k0_pay3 (acc0 V c t.val t.isLt) := rfl

theorem before0_0 (t : Fin cfg0.N) (d) : (dat0 V c).before 0 t d = xa0 V c t :=
  ((dat0 V c).before_fetched 0 t (fetch0_0 t) d).trans rfl
theorem before0_1 (t : Fin cfg0.N) (d) : (dat0 V c).before 1 t d = xb0 V c t :=
  ((dat0 V c).before_fetched 1 t (fetch0_1 t) d).trans rfl

/-- The body at any point: `t mod 8` says which case runs; the invariant hands it the accumulator and takes it back at this point's contents. -/
theorem sound_body0 (t : Fin cfg0.N) :
    iprop((dat0 V c).Φ t.castSucc ∗ (dat0 V c).owesAt () t.castSucc
      ∗ (∃ d, owns (c : Thread nD τ) (ms0_0 t) fullShare ((dat0 V c).before 0 t d))
      ∗ (∃ d, owns (c : Thread nD τ) (ms0_1 t) fullShare ((dat0 V c).before 1 t d))
      ∗ (∃ d, owns (c : Thread nD τ) (ms0_2 t) fullShare ((dat0 V c).before 2 t d)))
    ⊢ wp frame (wpE (defs₀ (F := F)) Variants.none c none) Set.univ (bodyAt0 t) (fun _ =>
      iprop((dat0 V c).Φ t.succ ∗ (dat0 V c).owesAt () t.succ
        ∗ (dat0 V c).leavesExact 0 t ∗ (dat0 V c).leavesExact 1 t ∗ (dat0 V c).leavesExact 2 t)) := by
  obtain ⟨l0, l1, l2⟩ := idle0 t
  simp only [before0_0, before0_1]
  rw [show (dat0 V c).owesAt () t.succ = (dat0 V c).owesAt () t.castSucc from rfl,
    show (dat0 V c).Φ t.succ = iprop(iprop(owns (c : Thread nD τ) scM0 fullShare (acc0 V c t.val t.isLt) ∗ rest0 c) ∗ (∃ r, prngReg c r)) from rfl,
    show (dat0 V c).Φ t.castSucc = PhiS0 V c t.val (Nat.le_of_lt t.isLt) from rfl,
    show (dat0 V c).leavesExact 0 t = owns (c : Thread nD τ) (ms0_0 t) fullShare (xa0 V c t) from by unfold Dat.leavesExact; rw [l0]; rfl,
    show (dat0 V c).leavesExact 1 t = owns (c : Thread nD τ) (ms0_1 t) fullShare (xb0 V c t) from by unfold Dat.leavesExact; rw [l1]; rfl]
  by_cases h0 : t.val % 8 = 0
  · have h1 : ¬t.val % 8 = 7 := by omega
    rw [Dat.leavesExact_idle (dat0 V c) 2 t (l2.mpr h1) (Bool.eq_false_iff.mpr fun h => h1 ((flush0_2 t).mp h)), acc0_first V c t h0]
    refine (sep_mono (PhiS0_le V c _ _) .rfl).trans ?_
    rw [PhiA0_eq]
    exact call_framed (W := fun K => wp frame (wpE (defs₀ (F := F)) Variants.none c none) Set.univ (bodyAt0 t) K)
      (fun d K => (kernelRun0_A c (grid0.coords t) (ms0_0 t) (hs0_0 t) (ms0_1 t) (hs0_1 t) (ms0_2 t) (hs0_2 t) scM0 (Memref.isWhole_whole _) (xa0 V c t) (xb0 V c t)
        ((hcond0_0 t).mpr h0) (fun h => h1 ((hcond0_1 t).mp h))).2 ((dat0 V c).before 2 t d) K)
      .rfl (owns_of_writes (c : Thread nD τ) scM0 fullShare _ _ (accA0 c _ _ _ _ _ _ _ _ _ _ _ _ _)) fun d => BIClass.exists_intro (Φ := fun d => owns (c : Thread nD τ) (ms0_2 t) fullShare ((dat0 V c).before 2 t d)) d
  · have hz : t.val ≠ 0 := fun e => h0 (by rw [e])
    rw [PhiS0_pos V c _ _ hz, acc0_next V c t h0]
    by_cases h1 : t.val % 8 = 7
    · rw [show (dat0 V c).leavesExact 2 t = owns (c : Thread nD τ) (ms0_2 t) fullShare ((dat0 V c).after 2 t) from by
        unfold Dat.leavesExact; rw [Bool.eq_false_iff.mpr fun h => l2.mp h h1], after0_2, acc0_next V c t h0]
      exact call_framed (W := fun K => wp frame (wpE (defs₀ (F := F)) Variants.none c none) Set.univ (bodyAt0 t) K)
        (fun d K => (kernelRun0_C c (grid0.coords t) (ms0_0 t) (hs0_0 t) (ms0_1 t) (hs0_1 t) (ms0_2 t) (hs0_2 t) scM0 (Memref.isWhole_whole _) (xa0 V c t) (xb0 V c t)
          (fun h => h0 ((hcond0_0 t).mp h)) ((hcond0_1 t).mpr h1) _).2.2 ((dat0 V c).before 2 t d) K)
        .rfl (owns_of_writes (c : Thread nD τ) scM0 fullShare _ _ (accC0 c _ _ _ _ _ _ _ _ _ _ _ _ _ _)) fun _ => owns_of_writes (c : Thread nD τ) (ms0_2 t) fullShare _ _ (outC0 c _ _ _ _ _ _ _ _ _ _ _ _ _ _)
    · rw [Dat.leavesExact_idle (dat0 V c) 2 t (l2.mpr h1) (Bool.eq_false_iff.mpr fun h => h1 ((flush0_2 t).mp h))]
      exact call_framed (W := fun K => wp frame (wpE (defs₀ (F := F)) Variants.none c none) Set.univ (bodyAt0 t) K)
        (fun d K => (kernelRun0_B c (grid0.coords t) (ms0_0 t) (hs0_0 t) (ms0_1 t) (hs0_1 t) (ms0_2 t) (hs0_2 t) scM0 (Memref.isWhole_whole _) (xa0 V c t) (xb0 V c t)
          (fun h => h0 ((hcond0_0 t).mp h)) (fun h => h1 ((hcond0_1 t).mp h)) _).2 ((dat0 V c).before 2 t d) K)
        .rfl (owns_of_writes (c : Thread nD τ) scM0 fullShare _ _ (accB0 c _ _ _ _ _ _ _ _ _ _ _ _ _ _)) fun d => BIClass.exists_intro (Φ := fun d => owns (c : Thread nD τ) (ms0_2 t) fullShare ((dat0 V c).before 2 t d)) d

theorem body_obligation0 : BodyObligation (dat0 (F := F) V c) (defs₀ (F := F)) Variants.none () Set.univ := fun t => by
  rw [bigSep_W0, bigSep_W0]
  exact sound_body0 V c t

theorem hin0 : Pipeline.ΦA spec0 c ⊢ (dat0 V c).Φ 0 := .rfl

theorem hout0 : (dat0 V c).Φ (Fin.last cfg0.N) ⊢ Pipeline.ΦA spec0 c :=
  show PhiS0 V c cfg0.N (Nat.le_refl _) ⊢ _ from PhiS0_le V c _ _

end Cert.Kernel.Fr

end
-- ==== Proof.Kernel.R1Runs.lean ====
import proofs.«154173_j9740985828005_1_alg».proof.Proof.Gen.Kernel.Launch
import proofs.«154173_j9740985828005_1_alg».proof.Proof.Gen.Kernel.Skeleton
import proofs.«154173_j9740985828005_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The part of array `w` that grid point `t` works on. -/
def iblk1 (V : (c : Dev nD) → (b : Ref sig .tc) → Buf (Elt F) ((c : Thread nD τ).loc b)) (c : Dev nD) (w : Fin cfg1.W) (t : Fin cfg1.N) :
    ((cfg1.win w).xblock (cfg1.grid.coords t)).Idx → Elt F (cfg1.win w).elt :=
  ((cfg1.win w).blk t).view.read (Elt F) (V c (Pipeline.arrRef spec1 w))

/-- The body's two tests on the position `k` along the contracted axis, `k = 0` and `k = 7`; `k` is the point modulo 8. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-- Only the points with `k = 7` produce an output block. -/
theorem idle1 : ∀ t : Fin cfg1.N, cfg1.idle 0 (grid1.coords t) = false ∧ cfg1.idle 1 (grid1.coords t) = false
    ∧ (cfg1.idle 2 (grid1.coords t) = true ↔ ¬t.val % 8 = 7) := by decide +kernel

abbrev ms1_0 (t : Fin cfg1.N) : Memref sig .tc .vmem S1024x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x256 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x256 .bf16 := win1_2.stage (cfg1.slots t 2)
abbrev hs1_2 (t : Fin cfg1.N) : (ms1_2 t).IsWhole := hstage1_2 ((cfg1.slots t 2).cast nbuf1_2)
abbrev scM1 : Memref sig .tc .vmem S1024x256 .f32 := Memref.whole cc1_scratch0

abbrev rest1 (c : Dev nD) : sProp 𝕄 :=
  Pipeline.scopedRestBut (Ix := Unit) (Name := ℕ) (U := UR sig nD τ) (Lvl := ℕ) (Val := Elt F) spec1 c [cc1_scratch0]

theorem PhiA1_eq (c : Dev nD) :
    (Pipeline.ΦA spec1 c : sProp 𝕄)
      = iprop(iprop((∃ d, owns (c : Thread nD τ) scM1 fullShare d) ∗ rest1 c) ∗ (∃ r, prngReg c r)) := by
  unfold Pipeline.ΦA
  rw [Pipeline.scopedRest_split_of_list spec1 c [cc1_scratch0] (by decide) (by decide)]
  simp only [scM1, owns_whole, bigSepL_singleton]; try rfl

/-- The accumulator's update by a point's two blocks. -/
abbrev upd1 (x0 : Vec F S1024x1024 .bf16) (x1 : Vec F S1024x256 .f32) (xs0 : Vec F S1024x256 .f32) : Vec F S1024x256 .f32 := k1_pay2 x0 x1 xs0

section Body

variable (c : Dev nD) (i : grid1.Coords) (a0 : Memref sig .tc .vmem S1024x1024 .bf16) (h0 : a0.IsWhole) (a1 : Memref sig .tc .vmem S1024x256 .f32) (h1 : a1.IsWhole)
  (a2 : Memref sig .tc .vmem S1024x256 .bf16) (h2 : a2.IsWhole) (a3 : Memref sig .tc .vmem S1024x256 .f32) (h3 : a3.IsWhole)
  (x0 : Vec F S1024x1024 .bf16) (x1 : Vec F S1024x256 .f32)

/-- What a run of the body shows: from the blocks `x0`, `x1`, the output's buffer at `xi2` and the accumulator as `S` says, it ends with the
    inputs as found, the output's buffer as `X xi2` says and the accumulator as the stores `LS` leave it. -/
abbrev BodyRun1 (S : sProp 𝕄) (X : Vec F S1024x256 .bf16 → sProp 𝕄) (LS : List (View.Piece (Elt F) S1024x256 .f32)) : Prop :=
  ∀ (xi2 : Vec F S1024x256 .bf16) (K : PUnit → sProp 𝕄),
    iprop(owns (c : Thread nD τ) a0 fullShare x0 ∗ owns (c : Thread nD τ) a1 fullShare x1 ∗ owns (c : Thread nD τ) a2 fullShare xi2 ∗ S
        ∗ (iprop(owns (c : Thread nD τ) a0 fullShare x0 ∗ owns (c : Thread nD τ) a1 fullShare x1 ∗ X xi2
            ∗ (∃ f, a3.view.loc (c : Thread nD τ) ↦[a3.view.set]{fullShare} a3.view.writes (Elt F) f LS)) -∗ K ⟨⟩))
      ⊢ wp frame (wpE (defs₀ (F := F)) Variants.none c none) Set.univ (cc1__mm2_kernel i a0 h0 a1 h1 a2 h2 a3 h3) K

/-- `k = 0`: the accumulator may hold anything; the body zeroes it and adds the blocks' product. -/
def kernelRun1_A (hc0 : cond1_0 i) (hc1 : ¬cond1_1 i) :
    { LS0 // BodyRun1 c i a0 h0 a1 h1 a2 h2 a3 h3 x0 x1 iprop(∃ d, owns (c : Thread nD τ) a3 fullShare d) (owns (c : Thread nD τ) a2 fullShare) LS0 } := by
  refine ⟨?_, fun xi2 K => ?run⟩
  case run =>
    simp only [cc1__mm2_kernel_eq_skeleton]; unfold cc1__mm2_kernel_skel
    unfold owns
    iintro ⟨⟨%f0, %hf0, H0⟩, ⟨%f1, %hf1, H1⟩, ⟨%f2, %hf2, H2⟩, ⟨%ds0, %fs0, -, HS0⟩, Hk⟩
    obtain rfl := h0.eq_unread hf0; obtain rfl := h1.eq_unread hf1; obtain rfl := h2.eq_unread hf2
    sl_exec (disch := first | exact hc0 | exact hc1)
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    iexists _; iexact HS0

/-- `0 < k < 7`: the accumulator holds `xs0`; the body adds the blocks' product. -/
def kernelRun1_B (hc0 : ¬cond1_0 i) (hc1 : ¬cond1_1 i) (xs0 : Vec F S1024x256 .f32) :
    { LS0 // BodyRun1 c i a0 h0 a1 h1 a2 h2 a3 h3 x0 x1 (owns (c : Thread nD τ) a3 fullShare xs0) (owns (c : Thread nD τ) a2 fullShare) LS0 } := by
  refine ⟨?_, fun xi2 K => ?run⟩
  case run =>
    simp only [cc1__mm2_kernel_eq_skeleton]; unfold cc1__mm2_kernel_skel
    unfold owns
    iintro ⟨⟨%f0, %hf0, H0⟩, ⟨%f1, %hf1, H1⟩, ⟨%f2, %hf2, H2⟩, ⟨%fs0, %hfs0, HS0⟩, Hk⟩
    obtain rfl := h0.eq_unread hf0; obtain rfl := h1.eq_unread hf1; obtain rfl := h2.eq_unread hf2; obtain rfl := h3.eq_unread hfs0
    sl_exec (disch := first | exact hc0 | exact hc1)
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    iexists _; iexact HS0

/-- `k = 7`: the body adds the blocks' product to `xs0` and stores the accumulator into the output's buffer. -/
def kernelRun1_C (hc0 : ¬cond1_0 i) (hc1 : cond1_1 i) (xs0 : Vec F S1024x256 .f32) :
    Σ' (L2 : List (View.Piece (Elt F) S1024x256 .bf16)), { LS0 // BodyRun1 c i a0 h0 a1 h1 a2 h2 a3 h3 x0 x1 (owns (c : Thread nD τ) a3 fullShare xs0)
      (fun _ => iprop(∃ f, a2.view.loc (c : Thread nD τ) ↦[a2.view.set]{fullShare} a2.view.writes (Elt F) f L2)) LS0 } := by
  refine ⟨?_, ?_, fun xi2 K => ?run⟩
  case run =>
    simp only [cc1__mm2_kernel_eq_skeleton]; unfold cc1__mm2_kernel_skel
    unfold owns
    iintro ⟨⟨%f0, %hf0, H0⟩, ⟨%f1, %hf1, H1⟩, ⟨%f2, -, H2⟩, ⟨%fs0, %hfs0, HS0⟩, Hk⟩
    obtain rfl := h0.eq_unread hf0; obtain rfl := h1.eq_unread hf1; obtain rfl := h3.eq_unread hfs0
    sl_exec (disch := first | exact hc0 | exact hc1)
    sl_step
    iapply Hk
    isplitl [H0]
    · iexists _; isplitr; · ipureintro; exact h0.read_unread _
      iexact H0
    isplitl [H1]
    · iexists _; isplitr; · ipureintro; exact h1.read_unread _
      iexact H1
    isplitl [H2]; · iexists _; iexact H2
    iexists _; iexact HS0

end Body

end Cert.Kernel.Fr

end
-- ==== Proof.Kernel.R1Frame.lean ====
import proofs.«154173_j9740985828005_1_alg».proof.Proof.Kernel.R1Runs
import proofs.«154173_j9740985828005_1_alg».proof.Proof.Sep
import Idealize.ShloMosaic.Lib.Pipeline.Value

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Sep

section Pieces

variable (c : Dev nD) (i : grid1.Coords) (a0 : Memref sig .tc .vmem S1024x1024 .bf16) (h0 : a0.IsWhole) (a1 : Memref sig .tc .vmem S1024x256 .f32) (h1 : a1.IsWhole)
  (a2 : Memref sig .tc .vmem S1024x256 .bf16) (h2 : a2.IsWhole) (a3 : Memref sig .tc .vmem S1024x256 .f32) (h3 : a3.IsWhole)
  (x0 : Vec F S1024x1024 .bf16) (x1 : Vec F S1024x256 .f32)

/-- At `k = 0` the stores leave the update of the zero block in the accumulator. -/
theorem accA1 (hc0 : cond1_0 i) (hc1 : ¬cond1_1 i) (f : a3.view.ty.Contents (Elt F)) :
    a3.view.read (Elt F) (a3.view.writes (Elt F) f (kernelRun1_A c i a0 h0 a1 h1 a2 h2 a3 h3 x0 x1 hc0 hc1).1) = upd1 x0 x1 k1_pay1 := by
  rw [View.read_writes_eq_canon _ _ _ fun y => View.cover_of_tiledL (kernelRun1_A c i a0 h0 a1 h1 a2 h2 a3 h3 x0 x1 hc0 hc1).1 S1024x256.size (by sl_kernel_rfl) y]
  unfold kernelRun1_A upd1
  dsimp only
  sl_unfold_words
  rw [View.canon_cons_unit_zero (S := S1024x256) origin2]
  simp only [View.readAt_eq_ld, h0.read_unread, h1.read_unread, h3.read_unread, View.ld_unit_zero (S := S1024x1024) origin2, View.ld_unit_zero (S := S1024x256) origin2, View.ld_unit_zero (S := S1024x256) origin2, View.readCov_unit_zero (S := S1024x256) _ origin2]

/-- At `0 < k < 7` they leave the update of what it held. -/
theorem accB1 (hc0 : ¬cond1_0 i) (hc1 : ¬cond1_1 i) (xs0 : Vec F S1024x256 .f32) (f : a3.view.ty.Contents (Elt F)) :
    a3.view.read (Elt F) (a3.view.writes (Elt F) f (kernelRun1_B c i a0 h0 a1 h1 a2 h2 a3 h3 x0 x1 hc0 hc1 xs0).1) = upd1 x0 x1 xs0 := by
  rw [View.read_writes_eq_canon _ _ _ fun y => View.cover_of_tiledL (kernelRun1_B c i a0 h0 a1 h1 a2 h2 a3 h3 x0 x1 hc0 hc1 xs0).1 S1024x256.size (by sl_kernel_rfl) y]
  unfold kernelRun1_B upd1
  dsimp only
  sl_unfold_words
  rw [View.canon_unit_zero origin2]
  simp only [View.readAt_eq_ld, h0.read_unread, h1.read_unread, h3.read_unread, View.ld_unit_zero (S := S1024x1024) origin2, View.ld_unit_zero (S := S1024x256) origin2, View.ld_unit_zero (S := S1024x256) origin2]

/-- At `k = 7` the same, -/
theorem accC1 (hc0 : ¬cond1_0 i) (hc1 : cond1_1 i) (xs0 : Vec F S1024x256 .f32) (f : a3.view.ty.Contents (Elt F)) :
    a3.view.read (Elt F) (a3.view.writes (Elt F) f (kernelRun1_C c i a0 h0 a1 h1 a2 h2 a3 h3 x0 x1 hc0 hc1 xs0).2.1) = upd1 x0 x1 xs0 := by
  rw [View.read_writes_eq_canon _ _ _ fun y => View.cover_of_tiledL (kernelRun1_C c i a0 h0 a1 h1 a2 h2 a3 h3 x0 x1 hc0 hc1 xs0).2.1 S1024x256.size (by sl_kernel_rfl) y]
  unfold kernelRun1_C upd1
  dsimp only
  sl_unfold_words
  rw [View.canon_unit_zero origin2]
  simp only [View.readAt_eq_ld, h0.read_unread, h1.read_unread, h3.read_unread, View.ld_unit_zero (S := S1024x1024) origin2, View.ld_unit_zero (S := S1024x256) origin2, View.ld_unit_zero (S := S1024x256) origin2]

/-- and the output block is the updated accumulator through the body's last operation. -/
theorem outC1 (hc0 : ¬cond1_0 i) (hc1 : cond1_1 i) (xs0 : Vec F S1024x256 .f32) (f : a2.view.ty.Contents (Elt F)) :
    a2.view.read (Elt F) (a2.view.writes (Elt F) f (kernelRun1_C c i a0 h0 a1 h1 a2 h2 a3 h3 x0 x1 hc0 hc1 xs0).1) = k1_pay3 (upd1 x0 x1 xs0) := by
  rw [View.read_writes_eq_canon _ _ _ fun y => View.cover_of_tiledL (kernelRun1_C c i a0 h0 a1 h1 a2 h2 a3 h3 x0 x1 hc0 hc1 xs0).1 S1024x256.size (by sl_kernel_rfl) y]
  unfold kernelRun1_C upd1
  dsimp only
  sl_unfold_words
  rw [View.canon_unit_zero origin2]
  simp only [View.readAt_eq_ld, h0.read_unread, h1.read_unread, h3.read_unread, View.ld_unit_zero (S := S1024x1024) origin2, View.ld_unit_zero (S := S1024x256) origin2, View.ld_unit_zero (S := S1024x256) origin2, View.readCov_unit_zero (S := S1024x256) _ origin2]

end Pieces

variable (V : (c : Dev nD) → (b : Ref sig .tc) → Buf (Elt F) ((c : Thread nD τ).loc b)) (c : Dev nD)

abbrev xa1 (t : Fin cfg1.N) : Vec F S1024x1024 .bf16 := iblk1 V c 0 t
abbrev xb1 (t : Fin cfg1.N) : Vec F S1024x256 .f32 := iblk1 V c 1 t

/-- The accumulator after point `n`: the update, by the point's blocks, of zero where `n ≡ 0 (mod 8)` and else of what the point before left. -/
def acc1 : (n : ℕ) → n < cfg1.N → Vec F S1024x256 .f32
  | 0, hn => upd1 (xa1 V c ⟨0, hn⟩) (xb1 V c ⟨0, hn⟩) k1_pay1
  | n + 1, hn => upd1 (xa1 V c ⟨n + 1, hn⟩) (xb1 V c ⟨n + 1, hn⟩) (if (n + 1) % 8 = 0 then k1_pay1 else acc1 n (Nat.lt_of_succ_lt hn))

theorem acc1_first (t : Fin cfg1.N) (h : t.val % 8 = 0) : acc1 V c t.val t.isLt = upd1 (xa1 V c t) (xb1 V c t) k1_pay1 := by
  obtain ⟨_ | n, hn⟩ := t
  · rfl
  · exact congrArg _ (if_pos h)

theorem acc1_next (t : Fin cfg1.N) (h : ¬t.val % 8 = 0) :
    acc1 V c t.val t.isLt = upd1 (xa1 V c t) (xb1 V c t) (acc1 V c (t.val - 1) (Nat.lt_of_le_of_lt (Nat.sub_le _ _) t.isLt)) := by
  obtain ⟨_ | n, hn⟩ := t
  · exact absurd (Nat.zero_mod _) h
  · exact congrArg _ (if_neg h)

/-- Before point `n` the accumulator holds what point `n - 1` left, or anything before the first point. -/
def PhiS1 : (n : ℕ) → n ≤ cfg1.N → sProp 𝕄
  | 0, _ => Pipeline.ΦA spec1 c
  | n + 1, hn => iprop(iprop(owns (c : Thread nD τ) scM1 fullShare (acc1 V c n hn) ∗ rest1 c) ∗ (∃ r, prngReg c r))

theorem PhiS1_pos (n : ℕ) (h : n ≤ cfg1.N) (hz : n ≠ 0) :
    PhiS1 V c n h = iprop(iprop(owns (c : Thread nD τ) scM1 fullShare (acc1 V c (n - 1) (by omega)) ∗ rest1 c) ∗ (∃ r, prngReg c r)) := by
  cases n with
  | zero => exact absurd rfl hz
  | succ n => rfl

theorem PhiS1_le : ∀ (n : ℕ) (h : n ≤ cfg1.N), PhiS1 V c n h ⊢ Pipeline.ΦA spec1 c
  | 0, _ => .rfl
  | n + 1, h => by
    rw [PhiA1_eq]
    exact sep_mono (sep_mono (BIClass.exists_intro (Φ := fun d => owns (c : Thread nD τ) scM1 fullShare d) _) .rfl) .rfl

def dat1 : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => k1_pay3 (acc1 V c t.val t.isLt)
  Φ t := PhiS1 V c t.val (Nat.le_of_lt_succ t.isLt)
  q _ := fullShare
  owed _ := 0

theorem A_eq1 (w : Fin cfg1.W) : (dat1 V c).A w = V c (Pipeline.arrRef spec1 w) := rfl

theorem after1_2 (t : Fin cfg1.N) : (dat1 V c).after 2 t = k1_pay3 (acc1 V c t.val t.isLt) := rfl

theorem before1_0 (t : Fin cfg1.N) (d) : (dat1 V c).before 0 t d = xa1 V c t :=
  ((dat1 V c).before_fetched 0 t (fetch1_0 t) d).trans rfl
theorem before1_1 (t : Fin cfg1.N) (d) : (dat1 V c).before 1 t d = xb1 V c t :=
  ((dat1 V c).before_fetched 1 t (fetch1_1 t) d).trans rfl

/-- The body at any point: `t mod 8` says which case runs; the invariant hands it the accumulator and takes it back at this point's contents. -/
theorem sound_body1 (t : Fin cfg1.N) :
    iprop((dat1 V c).Φ t.castSucc ∗ (dat1 V c).owesAt () t.castSucc
      ∗ (∃ d, owns (c : Thread nD τ) (ms1_0 t) fullShare ((dat1 V c).before 0 t d))
      ∗ (∃ d, owns (c : Thread nD τ) (ms1_1 t) fullShare ((dat1 V c).before 1 t d))
      ∗ (∃ d, owns (c : Thread nD τ) (ms1_2 t) fullShare ((dat1 V c).before 2 t d)))
    ⊢ wp frame (wpE (defs₀ (F := F)) Variants.none c none) Set.univ (bodyAt1 t) (fun _ =>
      iprop((dat1 V c).Φ t.succ ∗ (dat1 V c).owesAt () t.succ
        ∗ (dat1 V c).leavesExact 0 t ∗ (dat1 V c).leavesExact 1 t ∗ (dat1 V c).leavesExact 2 t)) := by
  obtain ⟨l0, l1, l2⟩ := idle1 t
  simp only [before1_0, before1_1]
  rw [show (dat1 V c).owesAt () t.succ = (dat1 V c).owesAt () t.castSucc from rfl,
    show (dat1 V c).Φ t.succ = iprop(iprop(owns (c : Thread nD τ) scM1 fullShare (acc1 V c t.val t.isLt) ∗ rest1 c) ∗ (∃ r, prngReg c r)) from rfl,
    show (dat1 V c).Φ t.castSucc = PhiS1 V c t.val (Nat.le_of_lt t.isLt) from rfl,
    show (dat1 V c).leavesExact 0 t = owns (c : Thread nD τ) (ms1_0 t) fullShare (xa1 V c t) from by unfold Dat.leavesExact; rw [l0]; rfl,
    show (dat1 V c).leavesExact 1 t = owns (c : Thread nD τ) (ms1_1 t) fullShare (xb1 V c t) from by unfold Dat.leavesExact; rw [l1]; rfl]
  by_cases h0 : t.val % 8 = 0
  · have h1 : ¬t.val % 8 = 7 := by omega
    rw [Dat.leavesExact_idle (dat1 V c) 2 t (l2.mpr h1) (Bool.eq_false_iff.mpr fun h => h1 ((flush1_2 t).mp h)), acc1_first V c t h0]
    refine (sep_mono (PhiS1_le V c _ _) .rfl).trans ?_
    rw [PhiA1_eq]
    exact call_framed (W := fun K => wp frame (wpE (defs₀ (F := F)) Variants.none c none) Set.univ (bodyAt1 t) K)
      (fun d K => (kernelRun1_A c (grid1.coords t) (ms1_0 t) (hs1_0 t) (ms1_1 t) (hs1_1 t) (ms1_2 t) (hs1_2 t) scM1 (Memref.isWhole_whole _) (xa1 V c t) (xb1 V c t)
        ((hcond1_0 t).mpr h0) (fun h => h1 ((hcond1_1 t).mp h))).2 ((dat1 V c).before 2 t d) K)
      .rfl (owns_of_writes (c : Thread nD τ) scM1 fullShare _ _ (accA1 c _ _ _ _ _ _ _ _ _ _ _ _ _)) fun d => BIClass.exists_intro (Φ := fun d => owns (c : Thread nD τ) (ms1_2 t) fullShare ((dat1 V c).before 2 t d)) d
  · have hz : t.val ≠ 0 := fun e => h0 (by rw [e])
    rw [PhiS1_pos V c _ _ hz, acc1_next V c t h0]
    by_cases h1 : t.val % 8 = 7
    · rw [show (dat1 V c).leavesExact 2 t = owns (c : Thread nD τ) (ms1_2 t) fullShare ((dat1 V c).after 2 t) from by
        unfold Dat.leavesExact; rw [Bool.eq_false_iff.mpr fun h => l2.mp h h1], after1_2, acc1_next V c t h0]
      exact call_framed (W := fun K => wp frame (wpE (defs₀ (F := F)) Variants.none c none) Set.univ (bodyAt1 t) K)
        (fun d K => (kernelRun1_C c (grid1.coords t) (ms1_0 t) (hs1_0 t) (ms1_1 t) (hs1_1 t) (ms1_2 t) (hs1_2 t) scM1 (Memref.isWhole_whole _) (xa1 V c t) (xb1 V c t)
          (fun h => h0 ((hcond1_0 t).mp h)) ((hcond1_1 t).mpr h1) _).2.2 ((dat1 V c).before 2 t d) K)
        .rfl (owns_of_writes (c : Thread nD τ) scM1 fullShare _ _ (accC1 c _ _ _ _ _ _ _ _ _ _ _ _ _ _)) fun _ => owns_of_writes (c : Thread nD τ) (ms1_2 t) fullShare _ _ (outC1 c _ _ _ _ _ _ _ _ _ _ _ _ _ _)
    · rw [Dat.leavesExact_idle (dat1 V c) 2 t (l2.mpr h1) (Bool.eq_false_iff.mpr fun h => h1 ((flush1_2 t).mp h))]
      exact call_framed (W := fun K => wp frame (wpE (defs₀ (F := F)) Variants.none c none) Set.univ (bodyAt1 t) K)
        (fun d K => (kernelRun1_B c (grid1.coords t) (ms1_0 t) (hs1_0 t) (ms1_1 t) (hs1_1 t) (ms1_2 t) (hs1_2 t) scM1 (Memref.isWhole_whole _) (xa1 V c t) (xb1 V c t)
          (fun h => h0 ((hcond1_0 t).mp h)) (fun h => h1 ((hcond1_1 t).mp h)) _).2 ((dat1 V c).before 2 t d) K)
        .rfl (owns_of_writes (c : Thread nD τ) scM1 fullShare _ _ (accB1 c _ _ _ _ _ _ _ _ _ _ _ _ _ _)) fun d => BIClass.exists_intro (Φ := fun d => owns (c : Thread nD τ) (ms1_2 t) fullShare ((dat1 V c).before 2 t d)) d

theorem body_obligation1 : BodyObligation (dat1 (F := F) V c) (defs₀ (F := F)) Variants.none () Set.univ := fun t => by
  rw [bigSep_W1, bigSep_W1]
  exact sound_body1 V c t

theorem hin1 : Pipeline.ΦA spec1 c ⊢ (dat1 V c).Φ 0 := .rfl

theorem hout1 : (dat1 V c).Φ (Fin.last cfg1.N) ⊢ Pipeline.ΦA spec1 c :=
  show PhiS1 V c cfg1.N (Nat.le_refl _) ⊢ _ from PhiS1_le V c _ _

end Cert.Kernel.Fr

end
-- ==== Proof.Kernel.R2Runs.lean ====
import proofs.«154173_j9740985828005_1_alg».proof.Proof.Gen.Kernel.Launch
import proofs.«154173_j9740985828005_1_alg».proof.Proof.Gen.Kernel.Skeleton
import proofs.«154173_j9740985828005_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The part of array `w` that grid point `t` works on. -/
def iblk2 (V : (c : Dev nD) → (b : Ref sig .tc) → Buf (Elt F) ((c : Thread nD τ).loc b)) (c : Dev nD) (w : Fin cfg2.W) (t : Fin cfg2.N) :
    ((cfg2.win w).xblock (cfg2.grid.coords t)).Idx → Elt F (cfg2.win w).elt :=
  ((cfg2.win w).blk t).view.read (Elt F) (V c (Pipeline.arrRef spec2 w))

/-- The body's two tests on the position `k` along the contracted axis, `k = 0` and `k = 7`; `k` is the point modulo 8. -/
abbrev cond2_0 (i : grid2.Coords) : Prop := (Scalar.cmpi .ne (Scalar.extui (Scalar.cmpi .eq (BitVec.ofNat 32 (i 1).val) 0#32)) 0#32) = 1#1
theorem hcond2_0 : ∀ t : Fin cfg2.N, cond2_0 (grid2.coords t) ↔ t.val % 8 = 0 :=
  (by decide +kernel : ∀ t : Fin grid2.N, cond2_0 (grid2.coords t) ↔ t.val % 8 = 0)
abbrev cond2_1 (i : grid2.Coords) : Prop := k2_cond2 i = 1#1
theorem hcond2_1 : ∀ t : Fin cfg2.N, cond2_1 (grid2.coords t) ↔ t.val % 8 = 7 :=
  (by decide +kernel : ∀ t : Fin grid2.N, cond2_1 (grid2.coords t) ↔ t.val % 8 = 7)

/-- Only the points with `k = 7` produce an output block. -/
theorem idle2 : ∀ t : Fin cfg2.N, cfg2.idle 0 (grid2.coords t) = false ∧ cfg2.idle 1 (grid2.coords t) = false
    ∧ (cfg2.idle 2 (grid2.coords t) = true ↔ ¬t.val % 8 = 7) := by decide +kernel

abbrev ms2_0 (t : Fin cfg2.N) : Memref sig .tc .vmem S1024x1024 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x256 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1024x256 .f32 := win2_2.stage (cfg2.slots t 2)
abbrev hs2_2 (t : Fin cfg2.N) : (ms2_2 t).IsWhole := hstage2_2 ((cfg2.slots t 2).cast nbuf2_2)
abbrev scM2 : Memref sig .tc .vmem S1024x256 .f32 := Memref.whole cc2_scratch0

abbrev rest2 (c : Dev nD) : sProp 𝕄 :=
  Pipeline.scopedRestBut (Ix := Unit) (Name := ℕ) (U := UR sig nD τ) (Lvl := ℕ) (Val := Elt F) spec2 c [cc2_scratch0]

theorem PhiA2_eq (c : Dev nD) :
    (Pipeline.ΦA spec2 c : sProp 𝕄)
      = iprop(iprop((∃ d, owns (c : Thread nD τ) scM2 fullShare d) ∗ rest2 c) ∗ (∃ r, prngReg c r)) := by
  unfold Pipeline.ΦA
  rw [Pipeline.scopedRest_split_of_list spec2 c [cc2_scratch0] (by decide) (by decide)]
  simp only [scM2, owns_whole, bigSepL_singleton]; try rfl

/-- The accumulator's update by a point's two blocks. -/
abbrev upd2 (x0 : Vec F S1024x1024 .bf16) (x1 : Vec F S1024x256 .bf16) (xs0 : Vec F S1024x256 .f32) : Vec F S1024x256 .f32 := k2_pay2 xs0 x0 x1

section Body

variable (c : Dev nD) (i : grid2.Coords) (a0 : Memref sig .tc .vmem S1024x1024 .bf16) (h0 : a0.IsWhole) (a1 : Memref sig .tc .vmem S1024x256 .bf16) (h1 : a1.IsWhole)
  (a2 : Memref sig .tc .vmem S1024x256 .f32) (h2 : a2.IsWhole) (a3 : Memref sig .tc .vmem S1024x256 .f32) (h3 : a3.IsWhole)
  (x0 : Vec F S1024x1024 .bf16) (x1 : Vec F S1024x256 .bf16)

/-- What a run of the body shows: from the blocks `x0`, `x1`, the output's buffer at `xi2` and the accumulator as `S` says, it ends with the
    inputs as found, the output's buffer as `X xi2` says and the accumulator as the stores `LS` leave it. -/
abbrev BodyRun2 (S : sProp 𝕄) (X : Vec F S1024x256 .f32 → sProp 𝕄) (LS : List (View.Piece (Elt F) S1024x256 .f32)) : Prop :=
  ∀ (xi2 : Vec F S1024x256 .f32) (K : PUnit → sProp 𝕄),
    iprop(owns (c : Thread nD τ) a0 fullShare x0 ∗ owns (c : Thread nD τ) a1 fullShare x1 ∗ owns (c : Thread nD τ) a2 fullShare xi2 ∗ S
        ∗ (iprop(owns (c : Thread nD τ) a0 fullShare x0 ∗ owns (c : Thread nD τ) a1 fullShare x1 ∗ X xi2
            ∗ (∃ f, a3.view.loc (c : Thread nD τ) ↦[a3.view.set]{fullShare} a3.view.writes (Elt F) f LS)) -∗ K ⟨⟩))
      ⊢ wp frame (wpE (defs₀ (F := F)) Variants.none c none) Set.univ (cc2__mm3_kernel i a0 h0 a1 h1 a2 h2 a3 h3) K

/-- `k = 0`: the accumulator may hold anything; the body zeroes it and adds the blocks' product. -/
def kernelRun2_A (hc0 : cond2_0 i) (hc1 : ¬cond2_1 i) :
    { LS0 // BodyRun2 c i a0 h0 a1 h1 a2 h2 a3 h3 x0 x1 iprop(∃ d, owns (c : Thread nD τ) a3 fullShare d) (owns (c : Thread nD τ) a2 fullShare) LS0 } := by
  refine ⟨?_, fun xi2 K => ?run⟩
  case run =>
    simp only [cc2__mm3_kernel_eq_skeleton]; unfold cc2__mm3_kernel_skel
    unfold owns
    iintro ⟨⟨%f0, %hf0, H0⟩, ⟨%f1, %hf1, H1⟩, ⟨%f2, %hf2, H2⟩, ⟨%ds0, %fs0, -, HS0⟩, Hk⟩
    obtain rfl := h0.eq_unread hf0; obtain rfl := h1.eq_unread hf1; obtain rfl := h2.eq_unread hf2
    sl_exec (disch := first | exact hc0 | exact hc1)
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    iexists _; iexact HS0

/-- `0 < k < 7`: the accumulator holds `xs0`; the body adds the blocks' product. -/
def kernelRun2_B (hc0 : ¬cond2_0 i) (hc1 : ¬cond2_1 i) (xs0 : Vec F S1024x256 .f32) :
    { LS0 // BodyRun2 c i a0 h0 a1 h1 a2 h2 a3 h3 x0 x1 (owns (c : Thread nD τ) a3 fullShare xs0) (owns (c : Thread nD τ) a2 fullShare) LS0 } := by
  refine ⟨?_, fun xi2 K => ?run⟩
  case run =>
    simp only [cc2__mm3_kernel_eq_skeleton]; unfold cc2__mm3_kernel_skel
    unfold owns
    iintro ⟨⟨%f0, %hf0, H0⟩, ⟨%f1, %hf1, H1⟩, ⟨%f2, %hf2, H2⟩, ⟨%fs0, %hfs0, HS0⟩, Hk⟩
    obtain rfl := h0.eq_unread hf0; obtain rfl := h1.eq_unread hf1; obtain rfl := h2.eq_unread hf2; obtain rfl := h3.eq_unread hfs0
    sl_exec (disch := first | exact hc0 | exact hc1)
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    iexists _; iexact HS0

/-- `k = 7`: the body adds the blocks' product to `xs0` and stores the accumulator into the output's buffer. -/
def kernelRun2_C (hc0 : ¬cond2_0 i) (hc1 : cond2_1 i) (xs0 : Vec F S1024x256 .f32) :
    Σ' (L2 : List (View.Piece (Elt F) S1024x256 .f32)), { LS0 // BodyRun2 c i a0 h0 a1 h1 a2 h2 a3 h3 x0 x1 (owns (c : Thread nD τ) a3 fullShare xs0)
      (fun _ => iprop(∃ f, a2.view.loc (c : Thread nD τ) ↦[a2.view.set]{fullShare} a2.view.writes (Elt F) f L2)) LS0 } := by
  refine ⟨?_, ?_, fun xi2 K => ?run⟩
  case run =>
    simp only [cc2__mm3_kernel_eq_skeleton]; unfold cc2__mm3_kernel_skel
    unfold owns
    iintro ⟨⟨%f0, %hf0, H0⟩, ⟨%f1, %hf1, H1⟩, ⟨%f2, -, H2⟩, ⟨%fs0, %hfs0, HS0⟩, Hk⟩
    obtain rfl := h0.eq_unread hf0; obtain rfl := h1.eq_unread hf1; obtain rfl := h3.eq_unread hfs0
    sl_exec (disch := first | exact hc0 | exact hc1)
    sl_step
    iapply Hk
    isplitl [H0]
    · iexists _; isplitr; · ipureintro; exact h0.read_unread _
      iexact H0
    isplitl [H1]
    · iexists _; isplitr; · ipureintro; exact h1.read_unread _
      iexact H1
    isplitl [H2]; · iexists _; iexact H2
    iexists _; iexact HS0

end Body

end Cert.Kernel.Fr

end
-- ==== Proof.Kernel.R2Frame.lean ====
import proofs.«154173_j9740985828005_1_alg».proof.Proof.Kernel.R2Runs
import proofs.«154173_j9740985828005_1_alg».proof.Proof.Sep
import Idealize.ShloMosaic.Lib.Pipeline.Value

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Sep

section Pieces

variable (c : Dev nD) (i : grid2.Coords) (a0 : Memref sig .tc .vmem S1024x1024 .bf16) (h0 : a0.IsWhole) (a1 : Memref sig .tc .vmem S1024x256 .bf16) (h1 : a1.IsWhole)
  (a2 : Memref sig .tc .vmem S1024x256 .f32) (h2 : a2.IsWhole) (a3 : Memref sig .tc .vmem S1024x256 .f32) (h3 : a3.IsWhole)
  (x0 : Vec F S1024x1024 .bf16) (x1 : Vec F S1024x256 .bf16)

/-- At `k = 0` the stores leave the update of the zero block in the accumulator. -/
theorem accA2 (hc0 : cond2_0 i) (hc1 : ¬cond2_1 i) (f : a3.view.ty.Contents (Elt F)) :
    a3.view.read (Elt F) (a3.view.writes (Elt F) f (kernelRun2_A c i a0 h0 a1 h1 a2 h2 a3 h3 x0 x1 hc0 hc1).1) = upd2 x0 x1 k2_pay1 := by
  rw [View.read_writes_eq_canon _ _ _ fun y => View.cover_of_tiledL (kernelRun2_A c i a0 h0 a1 h1 a2 h2 a3 h3 x0 x1 hc0 hc1).1 S1024x256.size (by sl_kernel_rfl) y]
  unfold kernelRun2_A upd2
  dsimp only
  sl_unfold_words
  rw [View.canon_cons_unit_zero (S := S1024x256) origin2]
  simp only [View.readAt_eq_ld, h0.read_unread, h1.read_unread, h3.read_unread, View.ld_unit_zero (S := S1024x1024) origin2, View.ld_unit_zero (S := S1024x256) origin2, View.ld_unit_zero (S := S1024x256) origin2, View.readCov_unit_zero (S := S1024x256) _ origin2]

/-- At `0 < k < 7` they leave the update of what it held. -/
theorem accB2 (hc0 : ¬cond2_0 i) (hc1 : ¬cond2_1 i) (xs0 : Vec F S1024x256 .f32) (f : a3.view.ty.Contents (Elt F)) :
    a3.view.read (Elt F) (a3.view.writes (Elt F) f (kernelRun2_B c i a0 h0 a1 h1 a2 h2 a3 h3 x0 x1 hc0 hc1 xs0).1) = upd2 x0 x1 xs0 := by
  rw [View.read_writes_eq_canon _ _ _ fun y => View.cover_of_tiledL (kernelRun2_B c i a0 h0 a1 h1 a2 h2 a3 h3 x0 x1 hc0 hc1 xs0).1 S1024x256.size (by sl_kernel_rfl) y]
  unfold kernelRun2_B upd2
  dsimp only
  sl_unfold_words
  rw [View.canon_unit_zero origin2]
  simp only [View.readAt_eq_ld, h0.read_unread, h1.read_unread, h3.read_unread, View.ld_unit_zero (S := S1024x1024) origin2, View.ld_unit_zero (S := S1024x256) origin2, View.ld_unit_zero (S := S1024x256) origin2]

/-- At `k = 7` the same, -/
theorem accC2 (hc0 : ¬cond2_0 i) (hc1 : cond2_1 i) (xs0 : Vec F S1024x256 .f32) (f : a3.view.ty.Contents (Elt F)) :
    a3.view.read (Elt F) (a3.view.writes (Elt F) f (kernelRun2_C c i a0 h0 a1 h1 a2 h2 a3 h3 x0 x1 hc0 hc1 xs0).2.1) = upd2 x0 x1 xs0 := by
  rw [View.read_writes_eq_canon _ _ _ fun y => View.cover_of_tiledL (kernelRun2_C c i a0 h0 a1 h1 a2 h2 a3 h3 x0 x1 hc0 hc1 xs0).2.1 S1024x256.size (by sl_kernel_rfl) y]
  unfold kernelRun2_C upd2
  dsimp only
  sl_unfold_words
  rw [View.canon_unit_zero origin2]
  simp only [View.readAt_eq_ld, h0.read_unread, h1.read_unread, h3.read_unread, View.ld_unit_zero (S := S1024x1024) origin2, View.ld_unit_zero (S := S1024x256) origin2, View.ld_unit_zero (S := S1024x256) origin2]

/-- and the output block is the updated accumulator through the body's last operation. -/
theorem outC2 (hc0 : ¬cond2_0 i) (hc1 : cond2_1 i) (xs0 : Vec F S1024x256 .f32) (f : a2.view.ty.Contents (Elt F)) :
    a2.view.read (Elt F) (a2.view.writes (Elt F) f (kernelRun2_C c i a0 h0 a1 h1 a2 h2 a3 h3 x0 x1 hc0 hc1 xs0).1) = k2_pay3 (upd2 x0 x1 xs0) := by
  rw [View.read_writes_eq_canon _ _ _ fun y => View.cover_of_tiledL (kernelRun2_C c i a0 h0 a1 h1 a2 h2 a3 h3 x0 x1 hc0 hc1 xs0).1 S1024x256.size (by sl_kernel_rfl) y]
  unfold kernelRun2_C upd2
  dsimp only
  sl_unfold_words
  rw [View.canon_unit_zero origin2]
  simp only [View.readAt_eq_ld, h0.read_unread, h1.read_unread, h3.read_unread, View.ld_unit_zero (S := S1024x1024) origin2, View.ld_unit_zero (S := S1024x256) origin2, View.ld_unit_zero (S := S1024x256) origin2, View.readCov_unit_zero (S := S1024x256) _ origin2]

end Pieces

variable (V : (c : Dev nD) → (b : Ref sig .tc) → Buf (Elt F) ((c : Thread nD τ).loc b)) (c : Dev nD)

abbrev xa2 (t : Fin cfg2.N) : Vec F S1024x1024 .bf16 := iblk2 V c 0 t
abbrev xb2 (t : Fin cfg2.N) : Vec F S1024x256 .bf16 := iblk2 V c 1 t

/-- The accumulator after point `n`: the update, by the point's blocks, of zero where `n ≡ 0 (mod 8)` and else of what the point before left. -/
def acc2 : (n : ℕ) → n < cfg2.N → Vec F S1024x256 .f32
  | 0, hn => upd2 (xa2 V c ⟨0, hn⟩) (xb2 V c ⟨0, hn⟩) k2_pay1
  | n + 1, hn => upd2 (xa2 V c ⟨n + 1, hn⟩) (xb2 V c ⟨n + 1, hn⟩) (if (n + 1) % 8 = 0 then k2_pay1 else acc2 n (Nat.lt_of_succ_lt hn))

theorem acc2_first (t : Fin cfg2.N) (h : t.val % 8 = 0) : acc2 V c t.val t.isLt = upd2 (xa2 V c t) (xb2 V c t) k2_pay1 := by
  obtain ⟨_ | n, hn⟩ := t
  · rfl
  · exact congrArg _ (if_pos h)

theorem acc2_next (t : Fin cfg2.N) (h : ¬t.val % 8 = 0) :
    acc2 V c t.val t.isLt = upd2 (xa2 V c t) (xb2 V c t) (acc2 V c (t.val - 1) (Nat.lt_of_le_of_lt (Nat.sub_le _ _) t.isLt)) := by
  obtain ⟨_ | n, hn⟩ := t
  · exact absurd (Nat.zero_mod _) h
  · exact congrArg _ (if_neg h)

/-- Before point `n` the accumulator holds what point `n - 1` left, or anything before the first point. -/
def PhiS2 : (n : ℕ) → n ≤ cfg2.N → sProp 𝕄
  | 0, _ => Pipeline.ΦA spec2 c
  | n + 1, hn => iprop(iprop(owns (c : Thread nD τ) scM2 fullShare (acc2 V c n hn) ∗ rest2 c) ∗ (∃ r, prngReg c r))

theorem PhiS2_pos (n : ℕ) (h : n ≤ cfg2.N) (hz : n ≠ 0) :
    PhiS2 V c n h = iprop(iprop(owns (c : Thread nD τ) scM2 fullShare (acc2 V c (n - 1) (by omega)) ∗ rest2 c) ∗ (∃ r, prngReg c r)) := by
  cases n with
  | zero => exact absurd rfl hz
  | succ n => rfl

theorem PhiS2_le : ∀ (n : ℕ) (h : n ≤ cfg2.N), PhiS2 V c n h ⊢ Pipeline.ΦA spec2 c
  | 0, _ => .rfl
  | n + 1, h => by
    rw [PhiA2_eq]
    exact sep_mono (sep_mono (BIClass.exists_intro (Φ := fun d => owns (c : Thread nD τ) scM2 fullShare d) _) .rfl) .rfl

def dat2 : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => k2_pay3 (acc2 V c t.val t.isLt)
  Φ t := PhiS2 V c t.val (Nat.le_of_lt_succ t.isLt)
  q _ := fullShare
  owed _ := 0

theorem A_eq2 (w : Fin cfg2.W) : (dat2 V c).A w = V c (Pipeline.arrRef spec2 w) := rfl

theorem after2_2 (t : Fin cfg2.N) : (dat2 V c).after 2 t = k2_pay3 (acc2 V c t.val t.isLt) := rfl

theorem before2_0 (t : Fin cfg2.N) (d) : (dat2 V c).before 0 t d = xa2 V c t :=
  ((dat2 V c).before_fetched 0 t (fetch2_0 t) d).trans rfl
theorem before2_1 (t : Fin cfg2.N) (d) : (dat2 V c).before 1 t d = xb2 V c t :=
  ((dat2 V c).before_fetched 1 t (fetch2_1 t) d).trans rfl

/-- The body at any point: `t mod 8` says which case runs; the invariant hands it the accumulator and takes it back at this point's contents. -/
theorem sound_body2 (t : Fin cfg2.N) :
    iprop((dat2 V c).Φ t.castSucc ∗ (dat2 V c).owesAt () t.castSucc
      ∗ (∃ d, owns (c : Thread nD τ) (ms2_0 t) fullShare ((dat2 V c).before 0 t d))
      ∗ (∃ d, owns (c : Thread nD τ) (ms2_1 t) fullShare ((dat2 V c).before 1 t d))
      ∗ (∃ d, owns (c : Thread nD τ) (ms2_2 t) fullShare ((dat2 V c).before 2 t d)))
    ⊢ wp frame (wpE (defs₀ (F := F)) Variants.none c none) Set.univ (bodyAt2 t) (fun _ =>
      iprop((dat2 V c).Φ t.succ ∗ (dat2 V c).owesAt () t.succ
        ∗ (dat2 V c).leavesExact 0 t ∗ (dat2 V c).leavesExact 1 t ∗ (dat2 V c).leavesExact 2 t)) := by
  obtain ⟨l0, l1, l2⟩ := idle2 t
  simp only [before2_0, before2_1]
  rw [show (dat2 V c).owesAt () t.succ = (dat2 V c).owesAt () t.castSucc from rfl,
    show (dat2 V c).Φ t.succ = iprop(iprop(owns (c : Thread nD τ) scM2 fullShare (acc2 V c t.val t.isLt) ∗ rest2 c) ∗ (∃ r, prngReg c r)) from rfl,
    show (dat2 V c).Φ t.castSucc = PhiS2 V c t.val (Nat.le_of_lt t.isLt) from rfl,
    show (dat2 V c).leavesExact 0 t = owns (c : Thread nD τ) (ms2_0 t) fullShare (xa2 V c t) from by unfold Dat.leavesExact; rw [l0]; rfl,
    show (dat2 V c).leavesExact 1 t = owns (c : Thread nD τ) (ms2_1 t) fullShare (xb2 V c t) from by unfold Dat.leavesExact; rw [l1]; rfl]
  by_cases h0 : t.val % 8 = 0
  · have h1 : ¬t.val % 8 = 7 := by omega
    rw [Dat.leavesExact_idle (dat2 V c) 2 t (l2.mpr h1) (Bool.eq_false_iff.mpr fun h => h1 ((flush2_2 t).mp h)), acc2_first V c t h0]
    refine (sep_mono (PhiS2_le V c _ _) .rfl).trans ?_
    rw [PhiA2_eq]
    exact call_framed (W := fun K => wp frame (wpE (defs₀ (F := F)) Variants.none c none) Set.univ (bodyAt2 t) K)
      (fun d K => (kernelRun2_A c (grid2.coords t) (ms2_0 t) (hs2_0 t) (ms2_1 t) (hs2_1 t) (ms2_2 t) (hs2_2 t) scM2 (Memref.isWhole_whole _) (xa2 V c t) (xb2 V c t)
        ((hcond2_0 t).mpr h0) (fun h => h1 ((hcond2_1 t).mp h))).2 ((dat2 V c).before 2 t d) K)
      .rfl (owns_of_writes (c : Thread nD τ) scM2 fullShare _ _ (accA2 c _ _ _ _ _ _ _ _ _ _ _ _ _)) fun d => BIClass.exists_intro (Φ := fun d => owns (c : Thread nD τ) (ms2_2 t) fullShare ((dat2 V c).before 2 t d)) d
  · have hz : t.val ≠ 0 := fun e => h0 (by rw [e])
    rw [PhiS2_pos V c _ _ hz, acc2_next V c t h0]
    by_cases h1 : t.val % 8 = 7
    · rw [show (dat2 V c).leavesExact 2 t = owns (c : Thread nD τ) (ms2_2 t) fullShare ((dat2 V c).after 2 t) from by
        unfold Dat.leavesExact; rw [Bool.eq_false_iff.mpr fun h => l2.mp h h1], after2_2, acc2_next V c t h0]
      exact call_framed (W := fun K => wp frame (wpE (defs₀ (F := F)) Variants.none c none) Set.univ (bodyAt2 t) K)
        (fun d K => (kernelRun2_C c (grid2.coords t) (ms2_0 t) (hs2_0 t) (ms2_1 t) (hs2_1 t) (ms2_2 t) (hs2_2 t) scM2 (Memref.isWhole_whole _) (xa2 V c t) (xb2 V c t)
          (fun h => h0 ((hcond2_0 t).mp h)) ((hcond2_1 t).mpr h1) _).2.2 ((dat2 V c).before 2 t d) K)
        .rfl (owns_of_writes (c : Thread nD τ) scM2 fullShare _ _ (accC2 c _ _ _ _ _ _ _ _ _ _ _ _ _ _)) fun _ => owns_of_writes (c : Thread nD τ) (ms2_2 t) fullShare _ _ (outC2 c _ _ _ _ _ _ _ _ _ _ _ _ _ _)
    · rw [Dat.leavesExact_idle (dat2 V c) 2 t (l2.mpr h1) (Bool.eq_false_iff.mpr fun h => h1 ((flush2_2 t).mp h))]
      exact call_framed (W := fun K => wp frame (wpE (defs₀ (F := F)) Variants.none c none) Set.univ (bodyAt2 t) K)
        (fun d K => (kernelRun2_B c (grid2.coords t) (ms2_0 t) (hs2_0 t) (ms2_1 t) (hs2_1 t) (ms2_2 t) (hs2_2 t) scM2 (Memref.isWhole_whole _) (xa2 V c t) (xb2 V c t)
          (fun h => h0 ((hcond2_0 t).mp h)) (fun h => h1 ((hcond2_1 t).mp h)) _).2 ((dat2 V c).before 2 t d) K)
        .rfl (owns_of_writes (c : Thread nD τ) scM2 fullShare _ _ (accB2 c _ _ _ _ _ _ _ _ _ _ _ _ _ _)) fun d => BIClass.exists_intro (Φ := fun d => owns (c : Thread nD τ) (ms2_2 t) fullShare ((dat2 V c).before 2 t d)) d

theorem body_obligation2 : BodyObligation (dat2 (F := F) V c) (defs₀ (F := F)) Variants.none () Set.univ := fun t => by
  rw [bigSep_W2, bigSep_W2]
  exact sound_body2 V c t

theorem hin2 : Pipeline.ΦA spec2 c ⊢ (dat2 V c).Φ 0 := .rfl

theorem hout2 : (dat2 V c).Φ (Fin.last cfg2.N) ⊢ Pipeline.ΦA spec2 c :=
  show PhiS2 V c cfg2.N (Nat.le_refl _) ⊢ _ from PhiS2_le V c _ _

end Cert.Kernel.Fr

end
-- ==== Proof.Kernel.Run.lean ====
import proofs.«154173_j9740985828005_1_alg».proof.Proof.Kernel.R0Frame
import proofs.«154173_j9740985828005_1_alg».proof.Proof.Kernel.R1Frame
import proofs.«154173_j9740985828005_1_alg».proof.Proof.Kernel.R2Frame

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Memory at launch, then after each region: a region changes only its output array. -/
abbrev W0 : Dev nD → Valuation τ sig (Elt F) := fun c b => m (c, b)
abbrev rd (W : Dev nD → Valuation τ sig (Elt F)) : (c : Dev nD) → (b : Ref sig .tc) → Buf (Elt F) ((c : Thread nD τ).loc b) := fun c b => W c b
def W1 (c : Dev nD) : Valuation τ sig (Elt F) :=
  Pipeline.withArrays spec0 c (W0 m c) fun w => (dat0 (rd (W0 m)) c).arrAt w cfg0.N
def W2 (c : Dev nD) : Valuation τ sig (Elt F) :=
  Pipeline.withArrays spec1 c (W1 m c) fun w => (dat1 (rd (W1 m)) c).arrAt w cfg1.N
def W3 (c : Dev nD) : Valuation τ sig (Elt F) :=
  Pipeline.withArrays spec2 c (W2 m c) fun w => (dat2 (rd (W2 m)) c).arrAt w cfg2.N
abbrev E0 := rd (W0 m)
abbrev E1 := rd (W1 m)
abbrev E2 := rd (W2 m)

theorem W1_arr (c : Dev nD) (w : Fin cfg0.W) : W1 m c (Proc.devRef .tc (Pipeline.arrRef spec0 w)) = (dat0 (E0 m) c).arrAt w cfg0.N :=
  Pipeline.withArrays_arr spec0 launch0.win.arr_inj c _ _ w
theorem W1_of_ne (c : Dev nD) (b : Ref sig .tc) (hb : ∀ w, Pipeline.arrRef spec0 w ≠ b) : W1 m c (Proc.devRef .tc b) = W0 m c (Proc.devRef .tc b) :=
  Pipeline.withArrays_of_ne spec0 c _ _ b hb
theorem W2_arr (c : Dev nD) (w : Fin cfg1.W) : W2 m c (Proc.devRef .tc (Pipeline.arrRef spec1 w)) = (dat1 (E1 m) c).arrAt w cfg1.N :=
  Pipeline.withArrays_arr spec1 launch1.win.arr_inj c _ _ w
theorem W2_of_ne (c : Dev nD) (b : Ref sig .tc) (hb : ∀ w, Pipeline.arrRef spec1 w ≠ b) : W2 m c (Proc.devRef .tc b) = W1 m c (Proc.devRef .tc b) :=
  Pipeline.withArrays_of_ne spec1 c _ _ b hb
theorem W3_arr (c : Dev nD) (w : Fin cfg2.W) : W3 m c (Proc.devRef .tc (Pipeline.arrRef spec2 w)) = (dat2 (E2 m) c).arrAt w cfg2.N :=
  Pipeline.withArrays_arr spec2 launch2.win.arr_inj c _ _ w
theorem W3_of_ne (c : Dev nD) (b : Ref sig .tc) (hb : ∀ w, Pipeline.arrRef spec2 w ≠ b) : W3 m c (Proc.devRef .tc b) = W2 m c (Proc.devRef .tc b) :=
  Pipeline.withArrays_of_ne spec2 c _ _ b hb

/-- The arguments end as launched: a region reads one through an input window or passes it by. -/
theorem W3_main_arg0 (c : Dev nD) : W3 m c (Proc.devRef .tc main_arg0) = m ((c : Thread nD τ).loc main_arg0) :=
  (W3_of_ne m c main_arg0 (by decide)).trans <| (W2_of_ne m c main_arg0 (by decide)).trans <|
    (W1_arr m c 1).trans (((dat0 (E0 m) c).arrAt_in 1 rfl _).trans (A_eq0 (E0 m) c 1))
theorem W3_main_arg1 (c : Dev nD) : W3 m c (Proc.devRef .tc main_arg1) = m ((c : Thread nD τ).loc main_arg1) :=
  (W3_of_ne m c main_arg1 (by decide)).trans <| (W2_of_ne m c main_arg1 (by decide)).trans <|
    (W1_arr m c 0).trans (((dat0 (E0 m) c).arrAt_in 0 rfl _).trans (A_eq0 (E0 m) c 0))
theorem W3_main_arg2 (c : Dev nD) : W3 m c (Proc.devRef .tc main_arg2) = m ((c : Thread nD τ).loc main_arg2) :=
  (W3_of_ne m c main_arg2 (by decide)).trans <| ((W2_arr m c 1).trans (((dat1 (E1 m) c).arrAt_in 1 rfl _).trans (A_eq1 (E1 m) c 1))).trans <|
    W1_of_ne m c main_arg2 (by decide)

abbrev adm : (p : Fin 3) → (pcfgs (F := F) p).Adm := fun p => (cfgs p).toPCfg_adm
/-- Every region's proof data, each at the contents the region is entered with. -/
def pdats : (p : Fin 3) → (c : Dev nD) → Dat τ (Elt F) Unit ℕ (UR sig nD τ) ℕ (Pipeline.pin (pcfgs (F := F)) adm p) c
  | ⟨0, _⟩ => fun c => dat0 (E0 m) c
  | ⟨1, _⟩ => fun c => dat1 (E1 m) c
  | ⟨2, _⟩ => fun c => dat2 (E2 m) c
abbrev 𝒱₀ : Variants := Variants.none
abbrev L : GSem nD τ sig → Finset Unit := fun _ => ∅
abbrev lv : GSem nD τ sig → Unit → ℕ := fun _ _ => 0
abbrev T (W : Dev nD → Valuation τ sig (Elt F)) (c : Dev nD) : sProp 𝕄 :=
  iprop(iprop(StableHlo.held (c : Thread nD τ) (Pipeline.ucRefs τ sig) (W c) ∗ ∃ r, prngReg c r) ∗ ∃ Wo, owes (c : Thread nD τ) (0 : CellTallies nD τ sig Unit) Wo)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- One region as a step of @main from memory `Wi` to memory `Wo`, given its body obligation and that it changes only its own arrays. -/
def mkReg (p : Fin 3) (launch : Pipeline.LaunchFacts (nD := nD) (τ := τ) cfgs p) (Wi Wo : Dev nD → Valuation τ sig (Elt F))
    (hbody : ∀ c, BodyObligation (pdats m p c) (defs₀ (F := F)) 𝒱₀ () Set.univ)
    (hq : ∀ c w, (pdats m p c).share w = fullShare) (howed : ∀ c t, (pdats m p c).owed t = 0) (hrec : ∀ c, (pdats m p c).recorded 0 = Set.univ)
    (hA : ∀ c w, (pdats m p c).A w = rd Wi c (Pipeline.arrRef (Pipeline.pin (pcfgs (F := F)) adm p).spec w))
    (hF : ∀ c w, (pdats m p c).arrAt w (Pipeline.pin (pcfgs (F := F)) adm p).N = rd Wo c (Pipeline.arrRef (Pipeline.pin (pcfgs (F := F)) adm p).spec w))
    (hrest : ∀ c b, b ∉ Finset.univ.image (Pipeline.arrRef (Pipeline.pin (pcfgs (F := F)) adm p).spec) → rd Wo c b = rd Wi c b)
    (hin : ∀ c, Pipeline.ΦA (Pipeline.pin (pcfgs (F := F)) adm p).spec c ⊢ (pdats m p c).Φ 0)
    (hout : ∀ c, (pdats m p c).Φ (Fin.last (Pipeline.pin (pcfgs (F := F)) adm p).N) ⊢ Pipeline.ΦA (Pipeline.pin (pcfgs (F := F)) adm p).spec c) :
    Pipeline.RegionSeg (pcfgs (F := F)) adm (pdats m) () defs₀ 𝒱₀ L lv p where
  win := launch.win.to₀
  block_pos := launch.block_pos
  stage_whole := launch.stage_whole
  K := PEmpty
  osem k := k.elim
  ho := Pipeline.OwnSemFacts.none _
  hbody c := (hbody c).loose
  hwaits := Pipeline.hwaits_of_owed_zero _ _ _ _ L lv p howed
  pre := T Wi
  post := T Wo
  X c := iprop(∃ r, prngReg c r)
  Y c := iprop(∃ r, prngReg c r)
  Z c := Pipeline.unscopedRest (Ix := Unit) (Name := ℕ) (U := UR sig nD τ) (Lvl := ℕ) (Pipeline.pin (pcfgs (F := F)) adm p).spec c (rd Wi c)
  hentry c := by
    rw [Pipeline.ownSems0_none]
    have hsplit := Pipeline.arrays_of_unscopedBufs (p := p) (pcfgs (F := F)) adm (pdats m) launch.win launch.arr_whole c (hq c) (rd Wi c) (hA c)
    rw [Pipeline.unscopedBufs_held] at hsplit
    iintro ⟨⟨⟨Hub, Hp⟩, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed c 0]
      icases HO with ⟨%W, HO⟩; iexists W; isplitr; · ipureintro; exact fun _ _ => Or.inl (hrec c ▸ trivial)
      iexact HO
    isplitl [Hp]; · iexact Hp
    iexact Hrest
  hin c := by
    have h := hin c
    unfold Pipeline.ΦA at h
    iintro ⟨Hp, -, Hr⟩
    iapply h
    isplitl [Hr]; · iexact Hr
    iexact Hp
  hout c := by
    rw [Pipeline.ownSems0_none]
    have h := hout c
    unfold Pipeline.ΦA at h
    iintro H
    ihave H' := h $$ H
    icases H' with ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      launch.win launch.arr_whole c (pdats m) (hq c) (rd Wi c) (rd Wo c) ((pdats m p c).arrAt · (Pipeline.pin (pcfgs (F := F)) adm p).N) (hF c) (hrest c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    rw [howed c _]
    icases HO with ⟨%W, -, HO⟩; iexists W; iexact HO

def reg0 : Pipeline.RegionSeg (pcfgs (F := F)) adm (pdats m) () defs₀ 𝒱₀ L lv 0 :=
  mkReg m 0 launch0 (W0 m) (W1 m) (body_obligation0 (E0 m)) (fun c => (pdats m 0 c).share_full fun _ => rfl) (fun _ _ => rfl) (fun _ => rfl) (fun _ _ => rfl)
    (fun c w => (W1_arr m c w).symm) (fun c b hb => W1_of_ne m c b fun w e => hb (Finset.mem_image.mpr ⟨w, Finset.mem_univ _, e⟩)) (hin0 (E0 m)) (hout0 (E0 m))
def reg1 : Pipeline.RegionSeg (pcfgs (F := F)) adm (pdats m) () defs₀ 𝒱₀ L lv 1 :=
  mkReg m 1 launch1 (W1 m) (W2 m) (body_obligation1 (E1 m)) (fun c => (pdats m 1 c).share_full fun _ => rfl) (fun _ _ => rfl) (fun _ => rfl) (fun _ _ => rfl)
    (fun c w => (W2_arr m c w).symm) (fun c b hb => W2_of_ne m c b fun w e => hb (Finset.mem_image.mpr ⟨w, Finset.mem_univ _, e⟩)) (hin1 (E1 m)) (hout1 (E1 m))
def reg2 : Pipeline.RegionSeg (pcfgs (F := F)) adm (pdats m) () defs₀ 𝒱₀ L lv 2 :=
  mkReg m 2 launch2 (W2 m) (W3 m) (body_obligation2 (E2 m)) (fun c => (pdats m 2 c).share_full fun _ => rfl) (fun _ _ => rfl) (fun _ => rfl) (fun _ _ => rfl)
    (fun c w => (W3_arr m c w).symm) (fun c b hb => W3_of_ne m c b fun w e => hb (Finset.mem_image.mpr ⟨w, Finset.mem_univ _, e⟩)) (hin2 (E2 m)) (hout2 (E2 m))

abbrev segs : List (Pipeline.Seg (pcfgs (F := F)) adm (pdats m) () defs₀ 𝒱₀ L lv) :=
  [ .region (reg0 m), .region (reg1 m), .region (reg2 m) ]

theorem main_run (c : Dev nD) : main (F := F) c = Pipeline.Seg.run (segs m) := (main_chain c).trans (by chain_rfl)

set_option backward.isDefEq.respectTransparency.types false in
/-- Every weakly fair execution of @main terminates, nothing faulting, with memory at `W3`. -/
theorem run_main (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := T (W0 m)) (Tₙ := fun c => iprop(StableHlo.held (c : Thread nD τ) (Pipeline.ucRefs τ sig) (W3 m c) ∗ ∃ r, prngReg c r))
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh Hp]
      · isplitl [Hh]; · iexact Hh
        iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h => h)

/-- The argument arrays end as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_arg0 (by decide))).trans (W3_main_arg0 m c),
     (h c _ (mem_uc main_arg1 (by decide))).trans (W3_main_arg1 m c),
     (h c _ (mem_uc main_arg2 (by decide))).trans (W3_main_arg2 m c)⟩) (run_main m ρ)

end Cert.Kernel.Fr

end
-- ==== Proof.KernelIdeal.R0Runs.lean ====
import proofs.«154173_j9740985828005_1_alg».proof.Proof.Gen.KernelIdeal.Launch
import proofs.«154173_j9740985828005_1_alg».proof.Proof.Gen.KernelIdeal.Skeleton
import proofs.«154173_j9740985828005_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The part of array `w` that grid point `t` works on. -/
def iblk0 (V : (c : Dev nD) → (b : Ref sig .tc) → Buf (Elt F) ((c : Thread nD τ).loc b)) (c : Dev nD) (w : Fin cfg0.W) (t : Fin cfg0.N) :
    ((cfg0.win w).xblock (cfg0.grid.coords t)).Idx → Elt F (cfg0.win w).elt :=
  ((cfg0.win w).blk t).view.read (Elt F) (V c (Pipeline.arrRef spec0 w))

/-- The body's two tests on the position `k` along the contracted axis, `k = 0` and `k = 7`; `k` is the point modulo 8. -/
abbrev cond0_0 (i : grid0.Coords) : Prop := (Scalar.cmpi .ne (Scalar.extui (Scalar.cmpi .eq (BitVec.ofNat 32 (i 2).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

/-- Only the points with `k = 7` produce an output block. -/
theorem idle0 : ∀ t : Fin cfg0.N, cfg0.idle 0 (grid0.coords t) = false ∧ cfg0.idle 1 (grid0.coords t) = false
    ∧ (cfg0.idle 2 (grid0.coords t) = true ↔ ¬t.val % 8 = 7) := by decide +kernel

abbrev ms0_0 (t : Fin cfg0.N) : Memref sig .tc .vmem S1024x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1024 .bf16 := win0_2.stage (cfg0.slots t 2)
abbrev hs0_2 (t : Fin cfg0.N) : (ms0_2 t).IsWhole := hstage0_2 ((cfg0.slots t 2).cast nbuf0_2)
abbrev scM0 : Memref sig .tc .vmem S1024x1024 .f32 := Memref.whole cc0_scratch0

abbrev rest0 (c : Dev nD) : sProp 𝕄 :=
  Pipeline.scopedRestBut (Ix := Unit) (Name := ℕ) (U := UR sig nD τ) (Lvl := ℕ) (Val := Elt F) spec0 c [cc0_scratch0]

theorem PhiA0_eq (c : Dev nD) :
    (Pipeline.ΦA spec0 c : sProp 𝕄)
      = iprop(iprop((∃ d, owns (c : Thread nD τ) scM0 fullShare d) ∗ rest0 c) ∗ (∃ r, prngReg c r)) := by
  unfold Pipeline.ΦA
  rw [Pipeline.scopedRest_split_of_list spec0 c [cc0_scratch0] (by decide) (by decide)]
  simp only [scM0, owns_whole, bigSepL_singleton]; try rfl

/-- The accumulator's update by a point's two blocks. -/
abbrev upd0 (x0 : Vec F S1024x1024 .f32) (x1 : Vec F S1024x1024 .f32) (xs0 : Vec F S1024x1024 .f32) : Vec F S1024x1024 .f32 := k0_pay2 x0 x1 xs0

section Body

variable (c : Dev nD) (i : grid0.Coords) (a0 : Memref sig .tc .vmem S1024x1024 .f32) (h0 : a0.IsWhole) (a1 : Memref sig .tc .vmem S1024x1024 .f32) (h1 : a1.IsWhole)
  (a2 : Memref sig .tc .vmem S1024x1024 .bf16) (h2 : a2.IsWhole) (a3 : Memref sig .tc .vmem S1024x1024 .f32) (h3 : a3.IsWhole)
  (x0 : Vec F S1024x1024 .f32) (x1 : Vec F S1024x1024 .f32)

/-- What a run of the body shows: from the blocks `x0`, `x1`, the output's buffer at `xi2` and the accumulator as `S` says, it ends with the
    inputs as found, the output's buffer as `X xi2` says and the accumulator as the stores `LS` leave it. -/
abbrev BodyRun0 (S : sProp 𝕄) (X : Vec F S1024x1024 .bf16 → sProp 𝕄) (LS : List (View.Piece (Elt F) S1024x1024 .f32)) : Prop :=
  ∀ (xi2 : Vec F S1024x1024 .bf16) (K : PUnit → sProp 𝕄),
    iprop(owns (c : Thread nD τ) a0 fullShare x0 ∗ owns (c : Thread nD τ) a1 fullShare x1 ∗ owns (c : Thread nD τ) a2 fullShare xi2 ∗ S
        ∗ (iprop(owns (c : Thread nD τ) a0 fullShare x0 ∗ owns (c : Thread nD τ) a1 fullShare x1 ∗ X xi2
            ∗ (∃ f, a3.view.loc (c : Thread nD τ) ↦[a3.view.set]{fullShare} a3.view.writes (Elt F) f LS)) -∗ K ⟨⟩))
      ⊢ wp frame (wpE (defs₀ (F := F)) Variants.none c none) Set.univ (cc0__mm1_kernel i a0 h0 a1 h1 a2 h2 a3 h3) K

/-- `k = 0`: the accumulator may hold anything; the body zeroes it and adds the blocks' product. -/
def kernelRun0_A (hc0 : cond0_0 i) (hc1 : ¬cond0_1 i) :
    { LS0 // BodyRun0 c i a0 h0 a1 h1 a2 h2 a3 h3 x0 x1 iprop(∃ d, owns (c : Thread nD τ) a3 fullShare d) (owns (c : Thread nD τ) a2 fullShare) LS0 } := by
  refine ⟨?_, fun xi2 K => ?run⟩
  case run =>
    simp only [cc0__mm1_kernel_eq_skeleton]; unfold cc0__mm1_kernel_skel
    unfold owns
    iintro ⟨⟨%f0, %hf0, H0⟩, ⟨%f1, %hf1, H1⟩, ⟨%f2, %hf2, H2⟩, ⟨%ds0, %fs0, -, HS0⟩, Hk⟩
    obtain rfl := h0.eq_unread hf0; obtain rfl := h1.eq_unread hf1; obtain rfl := h2.eq_unread hf2
    sl_exec (disch := first | exact hc0 | exact hc1)
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    iexists _; iexact HS0

/-- `0 < k < 7`: the accumulator holds `xs0`; the body adds the blocks' product. -/
def kernelRun0_B (hc0 : ¬cond0_0 i) (hc1 : ¬cond0_1 i) (xs0 : Vec F S1024x1024 .f32) :
    { LS0 // BodyRun0 c i a0 h0 a1 h1 a2 h2 a3 h3 x0 x1 (owns (c : Thread nD τ) a3 fullShare xs0) (owns (c : Thread nD τ) a2 fullShare) LS0 } := by
  refine ⟨?_, fun xi2 K => ?run⟩
  case run =>
    simp only [cc0__mm1_kernel_eq_skeleton]; unfold cc0__mm1_kernel_skel
    unfold owns
    iintro ⟨⟨%f0, %hf0, H0⟩, ⟨%f1, %hf1, H1⟩, ⟨%f2, %hf2, H2⟩, ⟨%fs0, %hfs0, HS0⟩, Hk⟩
    obtain rfl := h0.eq_unread hf0; obtain rfl := h1.eq_unread hf1; obtain rfl := h2.eq_unread hf2; obtain rfl := h3.eq_unread hfs0
    sl_exec (disch := first | exact hc0 | exact hc1)
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    iexists _; iexact HS0

/-- `k = 7`: the body adds the blocks' product to `xs0` and stores the accumulator into the output's buffer. -/
def kernelRun0_C (hc0 : ¬cond0_0 i) (hc1 : cond0_1 i) (xs0 : Vec F S1024x1024 .f32) :
    Σ' (L2 : List (View.Piece (Elt F) S1024x1024 .bf16)), { LS0 // BodyRun0 c i a0 h0 a1 h1 a2 h2 a3 h3 x0 x1 (owns (c : Thread nD τ) a3 fullShare xs0)
      (fun _ => iprop(∃ f, a2.view.loc (c : Thread nD τ) ↦[a2.view.set]{fullShare} a2.view.writes (Elt F) f L2)) LS0 } := by
  refine ⟨?_, ?_, fun xi2 K => ?run⟩
  case run =>
    simp only [cc0__mm1_kernel_eq_skeleton]; unfold cc0__mm1_kernel_skel
    unfold owns
    iintro ⟨⟨%f0, %hf0, H0⟩, ⟨%f1, %hf1, H1⟩, ⟨%f2, -, H2⟩, ⟨%fs0, %hfs0, HS0⟩, Hk⟩
    obtain rfl := h0.eq_unread hf0; obtain rfl := h1.eq_unread hf1; obtain rfl := h3.eq_unread hfs0
    sl_exec (disch := first | exact hc0 | exact hc1)
    sl_step
    iapply Hk
    isplitl [H0]
    · iexists _; isplitr; · ipureintro; exact h0.read_unread _
      iexact H0
    isplitl [H1]
    · iexists _; isplitr; · ipureintro; exact h1.read_unread _
      iexact H1
    isplitl [H2]; · iexists _; iexact H2
    iexists _; iexact HS0

end Body

end Cert.KernelIdeal.Fr

end
-- ==== Proof.KernelIdeal.R0Frame.lean ====
import proofs.«154173_j9740985828005_1_alg».proof.Proof.KernelIdeal.R0Runs
import proofs.«154173_j9740985828005_1_alg».proof.Proof.Sep
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Sep

section Pieces

variable (c : Dev nD) (i : grid0.Coords) (a0 : Memref sig .tc .vmem S1024x1024 .f32) (h0 : a0.IsWhole) (a1 : Memref sig .tc .vmem S1024x1024 .f32) (h1 : a1.IsWhole)
  (a2 : Memref sig .tc .vmem S1024x1024 .bf16) (h2 : a2.IsWhole) (a3 : Memref sig .tc .vmem S1024x1024 .f32) (h3 : a3.IsWhole)
  (x0 : Vec F S1024x1024 .f32) (x1 : Vec F S1024x1024 .f32)

/-- At `k = 0` the stores leave the update of the zero block in the accumulator. -/
theorem accA0 (hc0 : cond0_0 i) (hc1 : ¬cond0_1 i) (f : a3.view.ty.Contents (Elt F)) :
    a3.view.read (Elt F) (a3.view.writes (Elt F) f (kernelRun0_A c i a0 h0 a1 h1 a2 h2 a3 h3 x0 x1 hc0 hc1).1) = upd0 x0 x1 k0_pay1 := by
  rw [View.read_writes_eq_canon _ _ _ fun y => View.cover_of_tiledL (kernelRun0_A c i a0 h0 a1 h1 a2 h2 a3 h3 x0 x1 hc0 hc1).1 S1024x1024.size (by sl_kernel_rfl) y]
  unfold kernelRun0_A upd0
  dsimp only
  sl_unfold_words
  rw [View.canon_cons_unit_zero (S := S1024x1024) origin2]
  simp only [View.readAt_eq_ld, h0.read_unread, h1.read_unread, h3.read_unread, View.ld_unit_zero (S := S1024x1024) origin2, View.ld_unit_zero (S := S1024x1024) origin2, View.ld_unit_zero (S := S1024x1024) origin2, View.readCov_unit_zero (S := S1024x1024) _ origin2]

/-- At `0 < k < 7` they leave the update of what it held. -/
theorem accB0 (hc0 : ¬cond0_0 i) (hc1 : ¬cond0_1 i) (xs0 : Vec F S1024x1024 .f32) (f : a3.view.ty.Contents (Elt F)) :
    a3.view.read (Elt F) (a3.view.writes (Elt F) f (kernelRun0_B c i a0 h0 a1 h1 a2 h2 a3 h3 x0 x1 hc0 hc1 xs0).1) = upd0 x0 x1 xs0 := by
  rw [View.read_writes_eq_canon _ _ _ fun y => View.cover_of_tiledL (kernelRun0_B c i a0 h0 a1 h1 a2 h2 a3 h3 x0 x1 hc0 hc1 xs0).1 S1024x1024.size (by sl_kernel_rfl) y]
  unfold kernelRun0_B upd0
  dsimp only
  sl_unfold_words
  rw [View.canon_unit_zero origin2]
  simp only [View.readAt_eq_ld, h0.read_unread, h1.read_unread, h3.read_unread, View.ld_unit_zero (S := S1024x1024) origin2, View.ld_unit_zero (S := S1024x1024) origin2, View.ld_unit_zero (S := S1024x1024) origin2]

/-- At `k = 7` the same, -/
theorem accC0 (hc0 : ¬cond0_0 i) (hc1 : cond0_1 i) (xs0 : Vec F S1024x1024 .f32) (f : a3.view.ty.Contents (Elt F)) :
    a3.view.read (Elt F) (a3.view.writes (Elt F) f (kernelRun0_C c i a0 h0 a1 h1 a2 h2 a3 h3 x0 x1 hc0 hc1 xs0).2.1) = upd0 x0 x1 xs0 := by
  rw [View.read_writes_eq_canon _ _ _ fun y => View.cover_of_tiledL (kernelRun0_C c i a0 h0 a1 h1 a2 h2 a3 h3 x0 x1 hc0 hc1 xs0).2.1 S1024x1024.size (by sl_kernel_rfl) y]
  unfold kernelRun0_C upd0
  dsimp only
  sl_unfold_words
  rw [View.canon_unit_zero origin2]
  simp only [View.readAt_eq_ld, h0.read_unread, h1.read_unread, h3.read_unread, View.ld_unit_zero (S := S1024x1024) origin2, View.ld_unit_zero (S := S1024x1024) origin2, View.ld_unit_zero (S := S1024x1024) origin2]

/-- and the output block is the updated accumulator through the body's last operation. -/
theorem outC0 (hc0 : ¬cond0_0 i) (hc1 : cond0_1 i) (xs0 : Vec F S1024x1024 .f32) (f : a2.view.ty.Contents (Elt F)) :
    a2.view.read (Elt F) (a2.view.writes (Elt F) f (kernelRun0_C c i a0 h0 a1 h1 a2 h2 a3 h3 x0 x1 hc0 hc1 xs0).1) = k0_pay3 (upd0 x0 x1 xs0) := by
  rw [View.read_writes_eq_canon _ _ _ fun y => View.cover_of_tiledL (kernelRun0_C c i a0 h0 a1 h1 a2 h2 a3 h3 x0 x1 hc0 hc1 xs0).1 S1024x1024.size (by sl_kernel_rfl) y]
  unfold kernelRun0_C upd0
  dsimp only
  sl_unfold_words
  rw [View.canon_unit_zero origin2]
  simp only [View.readAt_eq_ld, h0.read_unread, h1.read_unread, h3.read_unread, View.ld_unit_zero (S := S1024x1024) origin2, View.ld_unit_zero (S := S1024x1024) origin2, View.ld_unit_zero (S := S1024x1024) origin2, View.readCov_unit_zero (S := S1024x1024) _ origin2]

end Pieces

variable (V : (c : Dev nD) → (b : Ref sig .tc) → Buf (Elt F) ((c : Thread nD τ).loc b)) (c : Dev nD)

abbrev xa0 (t : Fin cfg0.N) : Vec F S1024x1024 .f32 := iblk0 V c 0 t
abbrev xb0 (t : Fin cfg0.N) : Vec F S1024x1024 .f32 := iblk0 V c 1 t

/-- The accumulator after point `n`: the update, by the point's blocks, of zero where `n ≡ 0 (mod 8)` and else of what the point before left. -/
def acc0 : (n : ℕ) → n < cfg0.N → Vec F S1024x1024 .f32
  | 0, hn => upd0 (xa0 V c ⟨0, hn⟩) (xb0 V c ⟨0, hn⟩) k0_pay1
  | n + 1, hn => upd0 (xa0 V c ⟨n + 1, hn⟩) (xb0 V c ⟨n + 1, hn⟩) (if (n + 1) % 8 = 0 then k0_pay1 else acc0 n (Nat.lt_of_succ_lt hn))

theorem acc0_first (t : Fin cfg0.N) (h : t.val % 8 = 0) : acc0 V c t.val t.isLt = upd0 (xa0 V c t) (xb0 V c t) k0_pay1 := by
  obtain ⟨_ | n, hn⟩ := t
  · rfl
  · exact congrArg _ (if_pos h)

theorem acc0_next (t : Fin cfg0.N) (h : ¬t.val % 8 = 0) :
    acc0 V c t.val t.isLt = upd0 (xa0 V c t) (xb0 V c t) (acc0 V c (t.val - 1) (Nat.lt_of_le_of_lt (Nat.sub_le _ _) t.isLt)) := by
  obtain ⟨_ | n, hn⟩ := t
  · exact absurd (Nat.zero_mod _) h
  · exact congrArg _ (if_neg h)

/-- Before point `n` the accumulator holds what point `n - 1` left, or anything before the first point. -/
def PhiS0 : (n : ℕ) → n ≤ cfg0.N → sProp 𝕄
  | 0, _ => Pipeline.ΦA spec0 c
  | n + 1, hn => iprop(iprop(owns (c : Thread nD τ) scM0 fullShare (acc0 V c n hn) ∗ rest0 c) ∗ (∃ r, prngReg c r))

theorem PhiS0_pos (n : ℕ) (h : n ≤ cfg0.N) (hz : n ≠ 0) :
    PhiS0 V c n h = iprop(iprop(owns (c : Thread nD τ) scM0 fullShare (acc0 V c (n - 1) (by omega)) ∗ rest0 c) ∗ (∃ r, prngReg c r)) := by
  cases n with
  | zero => exact absurd rfl hz
  | succ n => rfl

theorem PhiS0_le : ∀ (n : ℕ) (h : n ≤ cfg0.N), PhiS0 V c n h ⊢ Pipeline.ΦA spec0 c
  | 0, _ => .rfl
  | n + 1, h => by
    rw [PhiA0_eq]
    exact sep_mono (sep_mono (BIClass.exists_intro (Φ := fun d => owns (c : Thread nD τ) scM0 fullShare d) _) .rfl) .rfl

def dat0 : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay3 (acc0 V c t.val t.isLt)
  Φ t := PhiS0 V c t.val (Nat.le_of_lt_succ t.isLt)
  q _ := fullShare
  owed _ := 0

theorem A_eq0 (w : Fin cfg0.W) : (dat0 V c).A w = V c (Pipeline.arrRef spec0 w) := rfl

theorem after0_2 (t : Fin cfg0.N) : (dat0 V c).after 2 t = k0_pay3 (acc0 V c t.val t.isLt) := rfl

theorem before0_0 (t : Fin cfg0.N) (d) : (dat0 V c).before 0 t d = xa0 V c t :=
  ((dat0 V c).before_fetched 0 t (fetch0_0 t) d).trans rfl
theorem before0_1 (t : Fin cfg0.N) (d) : (dat0 V c).before 1 t d = xb0 V c t :=
  ((dat0 V c).before_fetched 1 t (fetch0_1 t) d).trans rfl

/-- The body at any point: `t mod 8` says which case runs; the invariant hands it the accumulator and takes it back at this point's contents. -/
theorem sound_body0 (t : Fin cfg0.N) :
    iprop((dat0 V c).Φ t.castSucc ∗ (dat0 V c).owesAt () t.castSucc
      ∗ (∃ d, owns (c : Thread nD τ) (ms0_0 t) fullShare ((dat0 V c).before 0 t d))
      ∗ (∃ d, owns (c : Thread nD τ) (ms0_1 t) fullShare ((dat0 V c).before 1 t d))
      ∗ (∃ d, owns (c : Thread nD τ) (ms0_2 t) fullShare ((dat0 V c).before 2 t d)))
    ⊢ wp frame (wpE (defs₀ (F := F)) Variants.none c none) Set.univ (bodyAt0 t) (fun _ =>
      iprop((dat0 V c).Φ t.succ ∗ (dat0 V c).owesAt () t.succ
        ∗ (dat0 V c).leavesExact 0 t ∗ (dat0 V c).leavesExact 1 t ∗ (dat0 V c).leavesExact 2 t)) := by
  obtain ⟨l0, l1, l2⟩ := idle0 t
  simp only [before0_0, before0_1]
  rw [show (dat0 V c).owesAt () t.succ = (dat0 V c).owesAt () t.castSucc from rfl,
    show (dat0 V c).Φ t.succ = iprop(iprop(owns (c : Thread nD τ) scM0 fullShare (acc0 V c t.val t.isLt) ∗ rest0 c) ∗ (∃ r, prngReg c r)) from rfl,
    show (dat0 V c).Φ t.castSucc = PhiS0 V c t.val (Nat.le_of_lt t.isLt) from rfl,
    show (dat0 V c).leavesExact 0 t = owns (c : Thread nD τ) (ms0_0 t) fullShare (xa0 V c t) from by unfold Dat.leavesExact; rw [l0]; rfl,
    show (dat0 V c).leavesExact 1 t = owns (c : Thread nD τ) (ms0_1 t) fullShare (xb0 V c t) from by unfold Dat.leavesExact; rw [l1]; rfl]
  by_cases h0 : t.val % 8 = 0
  · have h1 : ¬t.val % 8 = 7 := by omega
    rw [Dat.leavesExact_idle (dat0 V c) 2 t (l2.mpr h1) (Bool.eq_false_iff.mpr fun h => h1 ((flush0_2 t).mp h)), acc0_first V c t h0]
    refine (sep_mono (PhiS0_le V c _ _) .rfl).trans ?_
    rw [PhiA0_eq]
    exact call_framed (W := fun K => wp frame (wpE (defs₀ (F := F)) Variants.none c none) Set.univ (bodyAt0 t) K)
      (fun d K => (kernelRun0_A c (grid0.coords t) (ms0_0 t) (hs0_0 t) (ms0_1 t) (hs0_1 t) (ms0_2 t) (hs0_2 t) scM0 (Memref.isWhole_whole _) (xa0 V c t) (xb0 V c t)
        ((hcond0_0 t).mpr h0) (fun h => h1 ((hcond0_1 t).mp h))).2 ((dat0 V c).before 2 t d) K)
      .rfl (owns_of_writes (c : Thread nD τ) scM0 fullShare _ _ (accA0 c _ _ _ _ _ _ _ _ _ _ _ _ _)) fun d => BIClass.exists_intro (Φ := fun d => owns (c : Thread nD τ) (ms0_2 t) fullShare ((dat0 V c).before 2 t d)) d
  · have hz : t.val ≠ 0 := fun e => h0 (by rw [e])
    rw [PhiS0_pos V c _ _ hz, acc0_next V c t h0]
    by_cases h1 : t.val % 8 = 7
    · rw [show (dat0 V c).leavesExact 2 t = owns (c : Thread nD τ) (ms0_2 t) fullShare ((dat0 V c).after 2 t) from by
        unfold Dat.leavesExact; rw [Bool.eq_false_iff.mpr fun h => l2.mp h h1], after0_2, acc0_next V c t h0]
      exact call_framed (W := fun K => wp frame (wpE (defs₀ (F := F)) Variants.none c none) Set.univ (bodyAt0 t) K)
        (fun d K => (kernelRun0_C c (grid0.coords t) (ms0_0 t) (hs0_0 t) (ms0_1 t) (hs0_1 t) (ms0_2 t) (hs0_2 t) scM0 (Memref.isWhole_whole _) (xa0 V c t) (xb0 V c t)
          (fun h => h0 ((hcond0_0 t).mp h)) ((hcond0_1 t).mpr h1) _).2.2 ((dat0 V c).before 2 t d) K)
        .rfl (owns_of_writes (c : Thread nD τ) scM0 fullShare _ _ (accC0 c _ _ _ _ _ _ _ _ _ _ _ _ _ _)) fun _ => owns_of_writes (c : Thread nD τ) (ms0_2 t) fullShare _ _ (outC0 c _ _ _ _ _ _ _ _ _ _ _ _ _ _)
    · rw [Dat.leavesExact_idle (dat0 V c) 2 t (l2.mpr h1) (Bool.eq_false_iff.mpr fun h => h1 ((flush0_2 t).mp h))]
      exact call_framed (W := fun K => wp frame (wpE (defs₀ (F := F)) Variants.none c none) Set.univ (bodyAt0 t) K)
        (fun d K => (kernelRun0_B c (grid0.coords t) (ms0_0 t) (hs0_0 t) (ms0_1 t) (hs0_1 t) (ms0_2 t) (hs0_2 t) scM0 (Memref.isWhole_whole _) (xa0 V c t) (xb0 V c t)
          (fun h => h0 ((hcond0_0 t).mp h)) (fun h => h1 ((hcond0_1 t).mp h)) _).2 ((dat0 V c).before 2 t d) K)
        .rfl (owns_of_writes (c : Thread nD τ) scM0 fullShare _ _ (accB0 c _ _ _ _ _ _ _ _ _ _ _ _ _ _)) fun d => BIClass.exists_intro (Φ := fun d => owns (c : Thread nD τ) (ms0_2 t) fullShare ((dat0 V c).before 2 t d)) d

theorem body_obligation0 : BodyObligation (dat0 (F := F) V c) (defs₀ (F := F)) Variants.none () Set.univ := fun t => by
  rw [bigSep_W0, bigSep_W0]
  exact sound_body0 V c t

theorem hin0 : Pipeline.ΦA spec0 c ⊢ (dat0 V c).Φ 0 := .rfl

theorem hout0 : (dat0 V c).Φ (Fin.last cfg0.N) ⊢ Pipeline.ΦA spec0 c :=
  show PhiS0 V c cfg0.N (Nat.le_refl _) ⊢ _ from PhiS0_le V c _ _

end Cert.KernelIdeal.Fr

end
-- ==== Proof.KernelIdeal.R1Runs.lean ====
import proofs.«154173_j9740985828005_1_alg».proof.Proof.Gen.KernelIdeal.Launch
import proofs.«154173_j9740985828005_1_alg».proof.Proof.Gen.KernelIdeal.Skeleton
import proofs.«154173_j9740985828005_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The part of array `w` that grid point `t` works on. -/
def iblk1 (V : (c : Dev nD) → (b : Ref sig .tc) → Buf (Elt F) ((c : Thread nD τ).loc b)) (c : Dev nD) (w : Fin cfg1.W) (t : Fin cfg1.N) :
    ((cfg1.win w).xblock (cfg1.grid.coords t)).Idx → Elt F (cfg1.win w).elt :=
  ((cfg1.win w).blk t).view.read (Elt F) (V c (Pipeline.arrRef spec1 w))

/-- The body's two tests on the position `k` along the contracted axis, `k = 0` and `k = 7`; `k` is the point modulo 8. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-- Only the points with `k = 7` produce an output block. -/
theorem idle1 : ∀ t : Fin cfg1.N, cfg1.idle 0 (grid1.coords t) = false ∧ cfg1.idle 1 (grid1.coords t) = false
    ∧ (cfg1.idle 2 (grid1.coords t) = true ↔ ¬t.val % 8 = 7) := by decide +kernel

abbrev ms1_0 (t : Fin cfg1.N) : Memref sig .tc .vmem S1024x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x256 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x256 .bf16 := win1_2.stage (cfg1.slots t 2)
abbrev hs1_2 (t : Fin cfg1.N) : (ms1_2 t).IsWhole := hstage1_2 ((cfg1.slots t 2).cast nbuf1_2)
abbrev scM1 : Memref sig .tc .vmem S1024x256 .f32 := Memref.whole cc1_scratch0

abbrev rest1 (c : Dev nD) : sProp 𝕄 :=
  Pipeline.scopedRestBut (Ix := Unit) (Name := ℕ) (U := UR sig nD τ) (Lvl := ℕ) (Val := Elt F) spec1 c [cc1_scratch0]

theorem PhiA1_eq (c : Dev nD) :
    (Pipeline.ΦA spec1 c : sProp 𝕄)
      = iprop(iprop((∃ d, owns (c : Thread nD τ) scM1 fullShare d) ∗ rest1 c) ∗ (∃ r, prngReg c r)) := by
  unfold Pipeline.ΦA
  rw [Pipeline.scopedRest_split_of_list spec1 c [cc1_scratch0] (by decide) (by decide)]
  simp only [scM1, owns_whole, bigSepL_singleton]; try rfl

/-- The accumulator's update by a point's two blocks. -/
abbrev upd1 (x0 : Vec F S1024x1024 .bf16) (x1 : Vec F S1024x256 .f32) (xs0 : Vec F S1024x256 .f32) : Vec F S1024x256 .f32 := k1_pay2 x0 x1 xs0

section Body

variable (c : Dev nD) (i : grid1.Coords) (a0 : Memref sig .tc .vmem S1024x1024 .bf16) (h0 : a0.IsWhole) (a1 : Memref sig .tc .vmem S1024x256 .f32) (h1 : a1.IsWhole)
  (a2 : Memref sig .tc .vmem S1024x256 .bf16) (h2 : a2.IsWhole) (a3 : Memref sig .tc .vmem S1024x256 .f32) (h3 : a3.IsWhole)
  (x0 : Vec F S1024x1024 .bf16) (x1 : Vec F S1024x256 .f32)

/-- What a run of the body shows: from the blocks `x0`, `x1`, the output's buffer at `xi2` and the accumulator as `S` says, it ends with the
    inputs as found, the output's buffer as `X xi2` says and the accumulator as the stores `LS` leave it. -/
abbrev BodyRun1 (S : sProp 𝕄) (X : Vec F S1024x256 .bf16 → sProp 𝕄) (LS : List (View.Piece (Elt F) S1024x256 .f32)) : Prop :=
  ∀ (xi2 : Vec F S1024x256 .bf16) (K : PUnit → sProp 𝕄),
    iprop(owns (c : Thread nD τ) a0 fullShare x0 ∗ owns (c : Thread nD τ) a1 fullShare x1 ∗ owns (c : Thread nD τ) a2 fullShare xi2 ∗ S
        ∗ (iprop(owns (c : Thread nD τ) a0 fullShare x0 ∗ owns (c : Thread nD τ) a1 fullShare x1 ∗ X xi2
            ∗ (∃ f, a3.view.loc (c : Thread nD τ) ↦[a3.view.set]{fullShare} a3.view.writes (Elt F) f LS)) -∗ K ⟨⟩))
      ⊢ wp frame (wpE (defs₀ (F := F)) Variants.none c none) Set.univ (cc1__mm2_kernel i a0 h0 a1 h1 a2 h2 a3 h3) K

/-- `k = 0`: the accumulator may hold anything; the body zeroes it and adds the blocks' product. -/
def kernelRun1_A (hc0 : cond1_0 i) (hc1 : ¬cond1_1 i) :
    { LS0 // BodyRun1 c i a0 h0 a1 h1 a2 h2 a3 h3 x0 x1 iprop(∃ d, owns (c : Thread nD τ) a3 fullShare d) (owns (c : Thread nD τ) a2 fullShare) LS0 } := by
  refine ⟨?_, fun xi2 K => ?run⟩
  case run =>
    simp only [cc1__mm2_kernel_eq_skeleton]; unfold cc1__mm2_kernel_skel
    unfold owns
    iintro ⟨⟨%f0, %hf0, H0⟩, ⟨%f1, %hf1, H1⟩, ⟨%f2, %hf2, H2⟩, ⟨%ds0, %fs0, -, HS0⟩, Hk⟩
    obtain rfl := h0.eq_unread hf0; obtain rfl := h1.eq_unread hf1; obtain rfl := h2.eq_unread hf2
    sl_exec (disch := first | exact hc0 | exact hc1)
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    iexists _; iexact HS0

/-- `0 < k < 7`: the accumulator holds `xs0`; the body adds the blocks' product. -/
def kernelRun1_B (hc0 : ¬cond1_0 i) (hc1 : ¬cond1_1 i) (xs0 : Vec F S1024x256 .f32) :
    { LS0 // BodyRun1 c i a0 h0 a1 h1 a2 h2 a3 h3 x0 x1 (owns (c : Thread nD τ) a3 fullShare xs0) (owns (c : Thread nD τ) a2 fullShare) LS0 } := by
  refine ⟨?_, fun xi2 K => ?run⟩
  case run =>
    simp only [cc1__mm2_kernel_eq_skeleton]; unfold cc1__mm2_kernel_skel
    unfold owns
    iintro ⟨⟨%f0, %hf0, H0⟩, ⟨%f1, %hf1, H1⟩, ⟨%f2, %hf2, H2⟩, ⟨%fs0, %hfs0, HS0⟩, Hk⟩
    obtain rfl := h0.eq_unread hf0; obtain rfl := h1.eq_unread hf1; obtain rfl := h2.eq_unread hf2; obtain rfl := h3.eq_unread hfs0
    sl_exec (disch := first | exact hc0 | exact hc1)
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    iexists _; iexact HS0

/-- `k = 7`: the body adds the blocks' product to `xs0` and stores the accumulator into the output's buffer. -/
def kernelRun1_C (hc0 : ¬cond1_0 i) (hc1 : cond1_1 i) (xs0 : Vec F S1024x256 .f32) :
    Σ' (L2 : List (View.Piece (Elt F) S1024x256 .bf16)), { LS0 // BodyRun1 c i a0 h0 a1 h1 a2 h2 a3 h3 x0 x1 (owns (c : Thread nD τ) a3 fullShare xs0)
      (fun _ => iprop(∃ f, a2.view.loc (c : Thread nD τ) ↦[a2.view.set]{fullShare} a2.view.writes (Elt F) f L2)) LS0 } := by
  refine ⟨?_, ?_, fun xi2 K => ?run⟩
  case run =>
    simp only [cc1__mm2_kernel_eq_skeleton]; unfold cc1__mm2_kernel_skel
    unfold owns
    iintro ⟨⟨%f0, %hf0, H0⟩, ⟨%f1, %hf1, H1⟩, ⟨%f2, -, H2⟩, ⟨%fs0, %hfs0, HS0⟩, Hk⟩
    obtain rfl := h0.eq_unread hf0; obtain rfl := h1.eq_unread hf1; obtain rfl := h3.eq_unread hfs0
    sl_exec (disch := first | exact hc0 | exact hc1)
    sl_step
    iapply Hk
    isplitl [H0]
    · iexists _; isplitr; · ipureintro; exact h0.read_unread _
      iexact H0
    isplitl [H1]
    · iexists _; isplitr; · ipureintro; exact h1.read_unread _
      iexact H1
    isplitl [H2]; · iexists _; iexact H2
    iexists _; iexact HS0

end Body

end Cert.KernelIdeal.Fr

end
-- ==== Proof.KernelIdeal.R1Frame.lean ====
import proofs.«154173_j9740985828005_1_alg».proof.Proof.KernelIdeal.R1Runs
import proofs.«154173_j9740985828005_1_alg».proof.Proof.Sep
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Sep

section Pieces

variable (c : Dev nD) (i : grid1.Coords) (a0 : Memref sig .tc .vmem S1024x1024 .bf16) (h0 : a0.IsWhole) (a1 : Memref sig .tc .vmem S1024x256 .f32) (h1 : a1.IsWhole)
  (a2 : Memref sig .tc .vmem S1024x256 .bf16) (h2 : a2.IsWhole) (a3 : Memref sig .tc .vmem S1024x256 .f32) (h3 : a3.IsWhole)
  (x0 : Vec F S1024x1024 .bf16) (x1 : Vec F S1024x256 .f32)

/-- At `k = 0` the stores leave the update of the zero block in the accumulator. -/
theorem accA1 (hc0 : cond1_0 i) (hc1 : ¬cond1_1 i) (f : a3.view.ty.Contents (Elt F)) :
    a3.view.read (Elt F) (a3.view.writes (Elt F) f (kernelRun1_A c i a0 h0 a1 h1 a2 h2 a3 h3 x0 x1 hc0 hc1).1) = upd1 x0 x1 k1_pay1 := by
  rw [View.read_writes_eq_canon _ _ _ fun y => View.cover_of_tiledL (kernelRun1_A c i a0 h0 a1 h1 a2 h2 a3 h3 x0 x1 hc0 hc1).1 S1024x256.size (by sl_kernel_rfl) y]
  unfold kernelRun1_A upd1
  dsimp only
  sl_unfold_words
  rw [View.canon_cons_unit_zero (S := S1024x256) origin2]
  simp only [View.readAt_eq_ld, h0.read_unread, h1.read_unread, h3.read_unread, View.ld_unit_zero (S := S1024x1024) origin2, View.ld_unit_zero (S := S1024x256) origin2, View.ld_unit_zero (S := S1024x256) origin2, View.readCov_unit_zero (S := S1024x256) _ origin2]

/-- At `0 < k < 7` they leave the update of what it held. -/
theorem accB1 (hc0 : ¬cond1_0 i) (hc1 : ¬cond1_1 i) (xs0 : Vec F S1024x256 .f32) (f : a3.view.ty.Contents (Elt F)) :
    a3.view.read (Elt F) (a3.view.writes (Elt F) f (kernelRun1_B c i a0 h0 a1 h1 a2 h2 a3 h3 x0 x1 hc0 hc1 xs0).1) = upd1 x0 x1 xs0 := by
  rw [View.read_writes_eq_canon _ _ _ fun y => View.cover_of_tiledL (kernelRun1_B c i a0 h0 a1 h1 a2 h2 a3 h3 x0 x1 hc0 hc1 xs0).1 S1024x256.size (by sl_kernel_rfl) y]
  unfold kernelRun1_B upd1
  dsimp only
  sl_unfold_words
  rw [View.canon_unit_zero origin2]
  simp only [View.readAt_eq_ld, h0.read_unread, h1.read_unread, h3.read_unread, View.ld_unit_zero (S := S1024x1024) origin2, View.ld_unit_zero (S := S1024x256) origin2, View.ld_unit_zero (S := S1024x256) origin2]

/-- At `k = 7` the same, -/
theorem accC1 (hc0 : ¬cond1_0 i) (hc1 : cond1_1 i) (xs0 : Vec F S1024x256 .f32) (f : a3.view.ty.Contents (Elt F)) :
    a3.view.read (Elt F) (a3.view.writes (Elt F) f (kernelRun1_C c i a0 h0 a1 h1 a2 h2 a3 h3 x0 x1 hc0 hc1 xs0).2.1) = upd1 x0 x1 xs0 := by
  rw [View.read_writes_eq_canon _ _ _ fun y => View.cover_of_tiledL (kernelRun1_C c i a0 h0 a1 h1 a2 h2 a3 h3 x0 x1 hc0 hc1 xs0).2.1 S1024x256.size (by sl_kernel_rfl) y]
  unfold kernelRun1_C upd1
  dsimp only
  sl_unfold_words
  rw [View.canon_unit_zero origin2]
  simp only [View.readAt_eq_ld, h0.read_unread, h1.read_unread, h3.read_unread, View.ld_unit_zero (S := S1024x1024) origin2, View.ld_unit_zero (S := S1024x256) origin2, View.ld_unit_zero (S := S1024x256) origin2]

/-- and the output block is the updated accumulator through the body's last operation. -/
theorem outC1 (hc0 : ¬cond1_0 i) (hc1 : cond1_1 i) (xs0 : Vec F S1024x256 .f32) (f : a2.view.ty.Contents (Elt F)) :
    a2.view.read (Elt F) (a2.view.writes (Elt F) f (kernelRun1_C c i a0 h0 a1 h1 a2 h2 a3 h3 x0 x1 hc0 hc1 xs0).1) = k1_pay3 (upd1 x0 x1 xs0) := by
  rw [View.read_writes_eq_canon _ _ _ fun y => View.cover_of_tiledL (kernelRun1_C c i a0 h0 a1 h1 a2 h2 a3 h3 x0 x1 hc0 hc1 xs0).1 S1024x256.size (by sl_kernel_rfl) y]
  unfold kernelRun1_C upd1
  dsimp only
  sl_unfold_words
  rw [View.canon_unit_zero origin2]
  simp only [View.readAt_eq_ld, h0.read_unread, h1.read_unread, h3.read_unread, View.ld_unit_zero (S := S1024x1024) origin2, View.ld_unit_zero (S := S1024x256) origin2, View.ld_unit_zero (S := S1024x256) origin2, View.readCov_unit_zero (S := S1024x256) _ origin2]

end Pieces

variable (V : (c : Dev nD) → (b : Ref sig .tc) → Buf (Elt F) ((c : Thread nD τ).loc b)) (c : Dev nD)

abbrev xa1 (t : Fin cfg1.N) : Vec F S1024x1024 .bf16 := iblk1 V c 0 t
abbrev xb1 (t : Fin cfg1.N) : Vec F S1024x256 .f32 := iblk1 V c 1 t

/-- The accumulator after point `n`: the update, by the point's blocks, of zero where `n ≡ 0 (mod 8)` and else of what the point before left. -/
def acc1 : (n : ℕ) → n < cfg1.N → Vec F S1024x256 .f32
  | 0, hn => upd1 (xa1 V c ⟨0, hn⟩) (xb1 V c ⟨0, hn⟩) k1_pay1
  | n + 1, hn => upd1 (xa1 V c ⟨n + 1, hn⟩) (xb1 V c ⟨n + 1, hn⟩) (if (n + 1) % 8 = 0 then k1_pay1 else acc1 n (Nat.lt_of_succ_lt hn))

theorem acc1_first (t : Fin cfg1.N) (h : t.val % 8 = 0) : acc1 V c t.val t.isLt = upd1 (xa1 V c t) (xb1 V c t) k1_pay1 := by
  obtain ⟨_ | n, hn⟩ := t
  · rfl
  · exact congrArg _ (if_pos h)

theorem acc1_next (t : Fin cfg1.N) (h : ¬t.val % 8 = 0) :
    acc1 V c t.val t.isLt = upd1 (xa1 V c t) (xb1 V c t) (acc1 V c (t.val - 1) (Nat.lt_of_le_of_lt (Nat.sub_le _ _) t.isLt)) := by
  obtain ⟨_ | n, hn⟩ := t
  · exact absurd (Nat.zero_mod _) h
  · exact congrArg _ (if_neg h)

/-- Before point `n` the accumulator holds what point `n - 1` left, or anything before the first point. -/
def PhiS1 : (n : ℕ) → n ≤ cfg1.N → sProp 𝕄
  | 0, _ => Pipeline.ΦA spec1 c
  | n + 1, hn => iprop(iprop(owns (c : Thread nD τ) scM1 fullShare (acc1 V c n hn) ∗ rest1 c) ∗ (∃ r, prngReg c r))

theorem PhiS1_pos (n : ℕ) (h : n ≤ cfg1.N) (hz : n ≠ 0) :
    PhiS1 V c n h = iprop(iprop(owns (c : Thread nD τ) scM1 fullShare (acc1 V c (n - 1) (by omega)) ∗ rest1 c) ∗ (∃ r, prngReg c r)) := by
  cases n with
  | zero => exact absurd rfl hz
  | succ n => rfl

theorem PhiS1_le : ∀ (n : ℕ) (h : n ≤ cfg1.N), PhiS1 V c n h ⊢ Pipeline.ΦA spec1 c
  | 0, _ => .rfl
  | n + 1, h => by
    rw [PhiA1_eq]
    exact sep_mono (sep_mono (BIClass.exists_intro (Φ := fun d => owns (c : Thread nD τ) scM1 fullShare d) _) .rfl) .rfl

def dat1 : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => k1_pay3 (acc1 V c t.val t.isLt)
  Φ t := PhiS1 V c t.val (Nat.le_of_lt_succ t.isLt)
  q _ := fullShare
  owed _ := 0

theorem A_eq1 (w : Fin cfg1.W) : (dat1 V c).A w = V c (Pipeline.arrRef spec1 w) := rfl

theorem after1_2 (t : Fin cfg1.N) : (dat1 V c).after 2 t = k1_pay3 (acc1 V c t.val t.isLt) := rfl

theorem before1_0 (t : Fin cfg1.N) (d) : (dat1 V c).before 0 t d = xa1 V c t :=
  ((dat1 V c).before_fetched 0 t (fetch1_0 t) d).trans rfl
theorem before1_1 (t : Fin cfg1.N) (d) : (dat1 V c).before 1 t d = xb1 V c t :=
  ((dat1 V c).before_fetched 1 t (fetch1_1 t) d).trans rfl

/-- The body at any point: `t mod 8` says which case runs; the invariant hands it the accumulator and takes it back at this point's contents. -/
theorem sound_body1 (t : Fin cfg1.N) :
    iprop((dat1 V c).Φ t.castSucc ∗ (dat1 V c).owesAt () t.castSucc
      ∗ (∃ d, owns (c : Thread nD τ) (ms1_0 t) fullShare ((dat1 V c).before 0 t d))
      ∗ (∃ d, owns (c : Thread nD τ) (ms1_1 t) fullShare ((dat1 V c).before 1 t d))
      ∗ (∃ d, owns (c : Thread nD τ) (ms1_2 t) fullShare ((dat1 V c).before 2 t d)))
    ⊢ wp frame (wpE (defs₀ (F := F)) Variants.none c none) Set.univ (bodyAt1 t) (fun _ =>
      iprop((dat1 V c).Φ t.succ ∗ (dat1 V c).owesAt () t.succ
        ∗ (dat1 V c).leavesExact 0 t ∗ (dat1 V c).leavesExact 1 t ∗ (dat1 V c).leavesExact 2 t)) := by
  obtain ⟨l0, l1, l2⟩ := idle1 t
  simp only [before1_0, before1_1]
  rw [show (dat1 V c).owesAt () t.succ = (dat1 V c).owesAt () t.castSucc from rfl,
    show (dat1 V c).Φ t.succ = iprop(iprop(owns (c : Thread nD τ) scM1 fullShare (acc1 V c t.val t.isLt) ∗ rest1 c) ∗ (∃ r, prngReg c r)) from rfl,
    show (dat1 V c).Φ t.castSucc = PhiS1 V c t.val (Nat.le_of_lt t.isLt) from rfl,
    show (dat1 V c).leavesExact 0 t = owns (c : Thread nD τ) (ms1_0 t) fullShare (xa1 V c t) from by unfold Dat.leavesExact; rw [l0]; rfl,
    show (dat1 V c).leavesExact 1 t = owns (c : Thread nD τ) (ms1_1 t) fullShare (xb1 V c t) from by unfold Dat.leavesExact; rw [l1]; rfl]
  by_cases h0 : t.val % 8 = 0
  · have h1 : ¬t.val % 8 = 7 := by omega
    rw [Dat.leavesExact_idle (dat1 V c) 2 t (l2.mpr h1) (Bool.eq_false_iff.mpr fun h => h1 ((flush1_2 t).mp h)), acc1_first V c t h0]
    refine (sep_mono (PhiS1_le V c _ _) .rfl).trans ?_
    rw [PhiA1_eq]
    exact call_framed (W := fun K => wp frame (wpE (defs₀ (F := F)) Variants.none c none) Set.univ (bodyAt1 t) K)
      (fun d K => (kernelRun1_A c (grid1.coords t) (ms1_0 t) (hs1_0 t) (ms1_1 t) (hs1_1 t) (ms1_2 t) (hs1_2 t) scM1 (Memref.isWhole_whole _) (xa1 V c t) (xb1 V c t)
        ((hcond1_0 t).mpr h0) (fun h => h1 ((hcond1_1 t).mp h))).2 ((dat1 V c).before 2 t d) K)
      .rfl (owns_of_writes (c : Thread nD τ) scM1 fullShare _ _ (accA1 c _ _ _ _ _ _ _ _ _ _ _ _ _)) fun d => BIClass.exists_intro (Φ := fun d => owns (c : Thread nD τ) (ms1_2 t) fullShare ((dat1 V c).before 2 t d)) d
  · have hz : t.val ≠ 0 := fun e => h0 (by rw [e])
    rw [PhiS1_pos V c _ _ hz, acc1_next V c t h0]
    by_cases h1 : t.val % 8 = 7
    · rw [show (dat1 V c).leavesExact 2 t = owns (c : Thread nD τ) (ms1_2 t) fullShare ((dat1 V c).after 2 t) from by
        unfold Dat.leavesExact; rw [Bool.eq_false_iff.mpr fun h => l2.mp h h1], after1_2, acc1_next V c t h0]
      exact call_framed (W := fun K => wp frame (wpE (defs₀ (F := F)) Variants.none c none) Set.univ (bodyAt1 t) K)
        (fun d K => (kernelRun1_C c (grid1.coords t) (ms1_0 t) (hs1_0 t) (ms1_1 t) (hs1_1 t) (ms1_2 t) (hs1_2 t) scM1 (Memref.isWhole_whole _) (xa1 V c t) (xb1 V c t)
          (fun h => h0 ((hcond1_0 t).mp h)) ((hcond1_1 t).mpr h1) _).2.2 ((dat1 V c).before 2 t d) K)
        .rfl (owns_of_writes (c : Thread nD τ) scM1 fullShare _ _ (accC1 c _ _ _ _ _ _ _ _ _ _ _ _ _ _)) fun _ => owns_of_writes (c : Thread nD τ) (ms1_2 t) fullShare _ _ (outC1 c _ _ _ _ _ _ _ _ _ _ _ _ _ _)
    · rw [Dat.leavesExact_idle (dat1 V c) 2 t (l2.mpr h1) (Bool.eq_false_iff.mpr fun h => h1 ((flush1_2 t).mp h))]
      exact call_framed (W := fun K => wp frame (wpE (defs₀ (F := F)) Variants.none c none) Set.univ (bodyAt1 t) K)
        (fun d K => (kernelRun1_B c (grid1.coords t) (ms1_0 t) (hs1_0 t) (ms1_1 t) (hs1_1 t) (ms1_2 t) (hs1_2 t) scM1 (Memref.isWhole_whole _) (xa1 V c t) (xb1 V c t)
          (fun h => h0 ((hcond1_0 t).mp h)) (fun h => h1 ((hcond1_1 t).mp h)) _).2 ((dat1 V c).before 2 t d) K)
        .rfl (owns_of_writes (c : Thread nD τ) scM1 fullShare _ _ (accB1 c _ _ _ _ _ _ _ _ _ _ _ _ _ _)) fun d => BIClass.exists_intro (Φ := fun d => owns (c : Thread nD τ) (ms1_2 t) fullShare ((dat1 V c).before 2 t d)) d

theorem body_obligation1 : BodyObligation (dat1 (F := F) V c) (defs₀ (F := F)) Variants.none () Set.univ := fun t => by
  rw [bigSep_W1, bigSep_W1]
  exact sound_body1 V c t

theorem hin1 : Pipeline.ΦA spec1 c ⊢ (dat1 V c).Φ 0 := .rfl

theorem hout1 : (dat1 V c).Φ (Fin.last cfg1.N) ⊢ Pipeline.ΦA spec1 c :=
  show PhiS1 V c cfg1.N (Nat.le_refl _) ⊢ _ from PhiS1_le V c _ _

end Cert.KernelIdeal.Fr

end
-- ==== Proof.KernelIdeal.R2Runs.lean ====
import proofs.«154173_j9740985828005_1_alg».proof.Proof.Gen.KernelIdeal.Launch
import proofs.«154173_j9740985828005_1_alg».proof.Proof.Gen.KernelIdeal.Skeleton
import proofs.«154173_j9740985828005_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The part of array `w` that grid point `t` works on. -/
def iblk2 (V : (c : Dev nD) → (b : Ref sig .tc) → Buf (Elt F) ((c : Thread nD τ).loc b)) (c : Dev nD) (w : Fin cfg2.W) (t : Fin cfg2.N) :
    ((cfg2.win w).xblock (cfg2.grid.coords t)).Idx → Elt F (cfg2.win w).elt :=
  ((cfg2.win w).blk t).view.read (Elt F) (V c (Pipeline.arrRef spec2 w))

/-- The body's two tests on the position `k` along the contracted axis, `k = 0` and `k = 7`; `k` is the point modulo 8. -/
abbrev cond2_0 (i : grid2.Coords) : Prop := (Scalar.cmpi .ne (Scalar.extui (Scalar.cmpi .eq (BitVec.ofNat 32 (i 1).val) 0#32)) 0#32) = 1#1
theorem hcond2_0 : ∀ t : Fin cfg2.N, cond2_0 (grid2.coords t) ↔ t.val % 8 = 0 :=
  (by decide +kernel : ∀ t : Fin grid2.N, cond2_0 (grid2.coords t) ↔ t.val % 8 = 0)
abbrev cond2_1 (i : grid2.Coords) : Prop := k2_cond2 i = 1#1
theorem hcond2_1 : ∀ t : Fin cfg2.N, cond2_1 (grid2.coords t) ↔ t.val % 8 = 7 :=
  (by decide +kernel : ∀ t : Fin grid2.N, cond2_1 (grid2.coords t) ↔ t.val % 8 = 7)

/-- Only the points with `k = 7` produce an output block. -/
theorem idle2 : ∀ t : Fin cfg2.N, cfg2.idle 0 (grid2.coords t) = false ∧ cfg2.idle 1 (grid2.coords t) = false
    ∧ (cfg2.idle 2 (grid2.coords t) = true ↔ ¬t.val % 8 = 7) := by decide +kernel

abbrev ms2_0 (t : Fin cfg2.N) : Memref sig .tc .vmem S1024x1024 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x256 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1024x256 .f32 := win2_2.stage (cfg2.slots t 2)
abbrev hs2_2 (t : Fin cfg2.N) : (ms2_2 t).IsWhole := hstage2_2 ((cfg2.slots t 2).cast nbuf2_2)
abbrev scM2 : Memref sig .tc .vmem S1024x256 .f32 := Memref.whole cc2_scratch0

abbrev rest2 (c : Dev nD) : sProp 𝕄 :=
  Pipeline.scopedRestBut (Ix := Unit) (Name := ℕ) (U := UR sig nD τ) (Lvl := ℕ) (Val := Elt F) spec2 c [cc2_scratch0]

theorem PhiA2_eq (c : Dev nD) :
    (Pipeline.ΦA spec2 c : sProp 𝕄)
      = iprop(iprop((∃ d, owns (c : Thread nD τ) scM2 fullShare d) ∗ rest2 c) ∗ (∃ r, prngReg c r)) := by
  unfold Pipeline.ΦA
  rw [Pipeline.scopedRest_split_of_list spec2 c [cc2_scratch0] (by decide) (by decide)]
  simp only [scM2, owns_whole, bigSepL_singleton]; try rfl

/-- The accumulator's update by a point's two blocks. -/
abbrev upd2 (x0 : Vec F S1024x1024 .bf16) (x1 : Vec F S1024x256 .bf16) (xs0 : Vec F S1024x256 .f32) : Vec F S1024x256 .f32 := k2_pay2 xs0 x0 x1

section Body

variable (c : Dev nD) (i : grid2.Coords) (a0 : Memref sig .tc .vmem S1024x1024 .bf16) (h0 : a0.IsWhole) (a1 : Memref sig .tc .vmem S1024x256 .bf16) (h1 : a1.IsWhole)
  (a2 : Memref sig .tc .vmem S1024x256 .f32) (h2 : a2.IsWhole) (a3 : Memref sig .tc .vmem S1024x256 .f32) (h3 : a3.IsWhole)
  (x0 : Vec F S1024x1024 .bf16) (x1 : Vec F S1024x256 .bf16)

/-- What a run of the body shows: from the blocks `x0`, `x1`, the output's buffer at `xi2` and the accumulator as `S` says, it ends with the
    inputs as found, the output's buffer as `X xi2` says and the accumulator as the stores `LS` leave it. -/
abbrev BodyRun2 (S : sProp 𝕄) (X : Vec F S1024x256 .f32 → sProp 𝕄) (LS : List (View.Piece (Elt F) S1024x256 .f32)) : Prop :=
  ∀ (xi2 : Vec F S1024x256 .f32) (K : PUnit → sProp 𝕄),
    iprop(owns (c : Thread nD τ) a0 fullShare x0 ∗ owns (c : Thread nD τ) a1 fullShare x1 ∗ owns (c : Thread nD τ) a2 fullShare xi2 ∗ S
        ∗ (iprop(owns (c : Thread nD τ) a0 fullShare x0 ∗ owns (c : Thread nD τ) a1 fullShare x1 ∗ X xi2
            ∗ (∃ f, a3.view.loc (c : Thread nD τ) ↦[a3.view.set]{fullShare} a3.view.writes (Elt F) f LS)) -∗ K ⟨⟩))
      ⊢ wp frame (wpE (defs₀ (F := F)) Variants.none c none) Set.univ (cc2__mm3_kernel i a0 h0 a1 h1 a2 h2 a3 h3) K

/-- `k = 0`: the accumulator may hold anything; the body zeroes it and adds the blocks' product. -/
def kernelRun2_A (hc0 : cond2_0 i) (hc1 : ¬cond2_1 i) :
    { LS0 // BodyRun2 c i a0 h0 a1 h1 a2 h2 a3 h3 x0 x1 iprop(∃ d, owns (c : Thread nD τ) a3 fullShare d) (owns (c : Thread nD τ) a2 fullShare) LS0 } := by
  refine ⟨?_, fun xi2 K => ?run⟩
  case run =>
    simp only [cc2__mm3_kernel_eq_skeleton]; unfold cc2__mm3_kernel_skel
    unfold owns
    iintro ⟨⟨%f0, %hf0, H0⟩, ⟨%f1, %hf1, H1⟩, ⟨%f2, %hf2, H2⟩, ⟨%ds0, %fs0, -, HS0⟩, Hk⟩
    obtain rfl := h0.eq_unread hf0; obtain rfl := h1.eq_unread hf1; obtain rfl := h2.eq_unread hf2
    sl_exec (disch := first | exact hc0 | exact hc1)
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    iexists _; iexact HS0

/-- `0 < k < 7`: the accumulator holds `xs0`; the body adds the blocks' product. -/
def kernelRun2_B (hc0 : ¬cond2_0 i) (hc1 : ¬cond2_1 i) (xs0 : Vec F S1024x256 .f32) :
    { LS0 // BodyRun2 c i a0 h0 a1 h1 a2 h2 a3 h3 x0 x1 (owns (c : Thread nD τ) a3 fullShare xs0) (owns (c : Thread nD τ) a2 fullShare) LS0 } := by
  refine ⟨?_, fun xi2 K => ?run⟩
  case run =>
    simp only [cc2__mm3_kernel_eq_skeleton]; unfold cc2__mm3_kernel_skel
    unfold owns
    iintro ⟨⟨%f0, %hf0, H0⟩, ⟨%f1, %hf1, H1⟩, ⟨%f2, %hf2, H2⟩, ⟨%fs0, %hfs0, HS0⟩, Hk⟩
    obtain rfl := h0.eq_unread hf0; obtain rfl := h1.eq_unread hf1; obtain rfl := h2.eq_unread hf2; obtain rfl := h3.eq_unread hfs0
    sl_exec (disch := first | exact hc0 | exact hc1)
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    iexists _; iexact HS0

/-- `k = 7`: the body adds the blocks' product to `xs0` and stores the accumulator into the output's buffer. -/
def kernelRun2_C (hc0 : ¬cond2_0 i) (hc1 : cond2_1 i) (xs0 : Vec F S1024x256 .f32) :
    Σ' (L2 : List (View.Piece (Elt F) S1024x256 .f32)), { LS0 // BodyRun2 c i a0 h0 a1 h1 a2 h2 a3 h3 x0 x1 (owns (c : Thread nD τ) a3 fullShare xs0)
      (fun _ => iprop(∃ f, a2.view.loc (c : Thread nD τ) ↦[a2.view.set]{fullShare} a2.view.writes (Elt F) f L2)) LS0 } := by
  refine ⟨?_, ?_, fun xi2 K => ?run⟩
  case run =>
    simp only [cc2__mm3_kernel_eq_skeleton]; unfold cc2__mm3_kernel_skel
    unfold owns
    iintro ⟨⟨%f0, %hf0, H0⟩, ⟨%f1, %hf1, H1⟩, ⟨%f2, -, H2⟩, ⟨%fs0, %hfs0, HS0⟩, Hk⟩
    obtain rfl := h0.eq_unread hf0; obtain rfl := h1.eq_unread hf1; obtain rfl := h3.eq_unread hfs0
    sl_exec (disch := first | exact hc0 | exact hc1)
    sl_step
    iapply Hk
    isplitl [H0]
    · iexists _; isplitr; · ipureintro; exact h0.read_unread _
      iexact H0
    isplitl [H1]
    · iexists _; isplitr; · ipureintro; exact h1.read_unread _
      iexact H1
    isplitl [H2]; · iexists _; iexact H2
    iexists _; iexact HS0

end Body

end Cert.KernelIdeal.Fr

end
-- ==== Proof.KernelIdeal.R2Frame.lean ====
import proofs.«154173_j9740985828005_1_alg».proof.Proof.KernelIdeal.R2Runs
import proofs.«154173_j9740985828005_1_alg».proof.Proof.Sep
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Sep

section Pieces

variable (c : Dev nD) (i : grid2.Coords) (a0 : Memref sig .tc .vmem S1024x1024 .bf16) (h0 : a0.IsWhole) (a1 : Memref sig .tc .vmem S1024x256 .bf16) (h1 : a1.IsWhole)
  (a2 : Memref sig .tc .vmem S1024x256 .f32) (h2 : a2.IsWhole) (a3 : Memref sig .tc .vmem S1024x256 .f32) (h3 : a3.IsWhole)
  (x0 : Vec F S1024x1024 .bf16) (x1 : Vec F S1024x256 .bf16)

/-- At `k = 0` the stores leave the update of the zero block in the accumulator. -/
theorem accA2 (hc0 : cond2_0 i) (hc1 : ¬cond2_1 i) (f : a3.view.ty.Contents (Elt F)) :
    a3.view.read (Elt F) (a3.view.writes (Elt F) f (kernelRun2_A c i a0 h0 a1 h1 a2 h2 a3 h3 x0 x1 hc0 hc1).1) = upd2 x0 x1 k2_pay1 := by
  rw [View.read_writes_eq_canon _ _ _ fun y => View.cover_of_tiledL (kernelRun2_A c i a0 h0 a1 h1 a2 h2 a3 h3 x0 x1 hc0 hc1).1 S1024x256.size (by sl_kernel_rfl) y]
  unfold kernelRun2_A upd2
  dsimp only
  sl_unfold_words
  rw [View.canon_cons_unit_zero (S := S1024x256) origin2]
  simp only [View.readAt_eq_ld, h0.read_unread, h1.read_unread, h3.read_unread, View.ld_unit_zero (S := S1024x1024) origin2, View.ld_unit_zero (S := S1024x256) origin2, View.ld_unit_zero (S := S1024x256) origin2, View.readCov_unit_zero (S := S1024x256) _ origin2]

/-- At `0 < k < 7` they leave the update of what it held. -/
theorem accB2 (hc0 : ¬cond2_0 i) (hc1 : ¬cond2_1 i) (xs0 : Vec F S1024x256 .f32) (f : a3.view.ty.Contents (Elt F)) :
    a3.view.read (Elt F) (a3.view.writes (Elt F) f (kernelRun2_B c i a0 h0 a1 h1 a2 h2 a3 h3 x0 x1 hc0 hc1 xs0).1) = upd2 x0 x1 xs0 := by
  rw [View.read_writes_eq_canon _ _ _ fun y => View.cover_of_tiledL (kernelRun2_B c i a0 h0 a1 h1 a2 h2 a3 h3 x0 x1 hc0 hc1 xs0).1 S1024x256.size (by sl_kernel_rfl) y]
  unfold kernelRun2_B upd2
  dsimp only
  sl_unfold_words
  rw [View.canon_unit_zero origin2]
  simp only [View.readAt_eq_ld, h0.read_unread, h1.read_unread, h3.read_unread, View.ld_unit_zero (S := S1024x1024) origin2, View.ld_unit_zero (S := S1024x256) origin2, View.ld_unit_zero (S := S1024x256) origin2]

/-- At `k = 7` the same, -/
theorem accC2 (hc0 : ¬cond2_0 i) (hc1 : cond2_1 i) (xs0 : Vec F S1024x256 .f32) (f : a3.view.ty.Contents (Elt F)) :
    a3.view.read (Elt F) (a3.view.writes (Elt F) f (kernelRun2_C c i a0 h0 a1 h1 a2 h2 a3 h3 x0 x1 hc0 hc1 xs0).2.1) = upd2 x0 x1 xs0 := by
  rw [View.read_writes_eq_canon _ _ _ fun y => View.cover_of_tiledL (kernelRun2_C c i a0 h0 a1 h1 a2 h2 a3 h3 x0 x1 hc0 hc1 xs0).2.1 S1024x256.size (by sl_kernel_rfl) y]
  unfold kernelRun2_C upd2
  dsimp only
  sl_unfold_words
  rw [View.canon_unit_zero origin2]
  simp only [View.readAt_eq_ld, h0.read_unread, h1.read_unread, h3.read_unread, View.ld_unit_zero (S := S1024x1024) origin2, View.ld_unit_zero (S := S1024x256) origin2, View.ld_unit_zero (S := S1024x256) origin2]

/-- and the output block is the updated accumulator through the body's last operation. -/
theorem outC2 (hc0 : ¬cond2_0 i) (hc1 : cond2_1 i) (xs0 : Vec F S1024x256 .f32) (f : a2.view.ty.Contents (Elt F)) :
    a2.view.read (Elt F) (a2.view.writes (Elt F) f (kernelRun2_C c i a0 h0 a1 h1 a2 h2 a3 h3 x0 x1 hc0 hc1 xs0).1) = k2_pay3 (upd2 x0 x1 xs0) := by
  rw [View.read_writes_eq_canon _ _ _ fun y => View.cover_of_tiledL (kernelRun2_C c i a0 h0 a1 h1 a2 h2 a3 h3 x0 x1 hc0 hc1 xs0).1 S1024x256.size (by sl_kernel_rfl) y]
  unfold kernelRun2_C upd2
  dsimp only
  sl_unfold_words
  rw [View.canon_unit_zero origin2]
  simp only [View.readAt_eq_ld, h0.read_unread, h1.read_unread, h3.read_unread, View.ld_unit_zero (S := S1024x1024) origin2, View.ld_unit_zero (S := S1024x256) origin2, View.ld_unit_zero (S := S1024x256) origin2, View.readCov_unit_zero (S := S1024x256) _ origin2]

end Pieces

variable (V : (c : Dev nD) → (b : Ref sig .tc) → Buf (Elt F) ((c : Thread nD τ).loc b)) (c : Dev nD)

abbrev xa2 (t : Fin cfg2.N) : Vec F S1024x1024 .bf16 := iblk2 V c 0 t
abbrev xb2 (t : Fin cfg2.N) : Vec F S1024x256 .bf16 := iblk2 V c 1 t

/-- The accumulator after point `n`: the update, by the point's blocks, of zero where `n ≡ 0 (mod 8)` and else of what the point before left. -/
def acc2 : (n : ℕ) → n < cfg2.N → Vec F S1024x256 .f32
  | 0, hn => upd2 (xa2 V c ⟨0, hn⟩) (xb2 V c ⟨0, hn⟩) k2_pay1
  | n + 1, hn => upd2 (xa2 V c ⟨n + 1, hn⟩) (xb2 V c ⟨n + 1, hn⟩) (if (n + 1) % 8 = 0 then k2_pay1 else acc2 n (Nat.lt_of_succ_lt hn))

theorem acc2_first (t : Fin cfg2.N) (h : t.val % 8 = 0) : acc2 V c t.val t.isLt = upd2 (xa2 V c t) (xb2 V c t) k2_pay1 := by
  obtain ⟨_ | n, hn⟩ := t
  · rfl
  · exact congrArg _ (if_pos h)

theorem acc2_next (t : Fin cfg2.N) (h : ¬t.val % 8 = 0) :
    acc2 V c t.val t.isLt = upd2 (xa2 V c t) (xb2 V c t) (acc2 V c (t.val - 1) (Nat.lt_of_le_of_lt (Nat.sub_le _ _) t.isLt)) := by
  obtain ⟨_ | n, hn⟩ := t
  · exact absurd (Nat.zero_mod _) h
  · exact congrArg _ (if_neg h)

/-- Before point `n` the accumulator holds what point `n - 1` left, or anything before the first point. -/
def PhiS2 : (n : ℕ) → n ≤ cfg2.N → sProp 𝕄
  | 0, _ => Pipeline.ΦA spec2 c
  | n + 1, hn => iprop(iprop(owns (c : Thread nD τ) scM2 fullShare (acc2 V c n hn) ∗ rest2 c) ∗ (∃ r, prngReg c r))

theorem PhiS2_pos (n : ℕ) (h : n ≤ cfg2.N) (hz : n ≠ 0) :
    PhiS2 V c n h = iprop(iprop(owns (c : Thread nD τ) scM2 fullShare (acc2 V c (n - 1) (by omega)) ∗ rest2 c) ∗ (∃ r, prngReg c r)) := by
  cases n with
  | zero => exact absurd rfl hz
  | succ n => rfl

theorem PhiS2_le : ∀ (n : ℕ) (h : n ≤ cfg2.N), PhiS2 V c n h ⊢ Pipeline.ΦA spec2 c
  | 0, _ => .rfl
  | n + 1, h => by
    rw [PhiA2_eq]
    exact sep_mono (sep_mono (BIClass.exists_intro (Φ := fun d => owns (c : Thread nD τ) scM2 fullShare d) _) .rfl) .rfl

def dat2 : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => k2_pay3 (acc2 V c t.val t.isLt)
  Φ t := PhiS2 V c t.val (Nat.le_of_lt_succ t.isLt)
  q _ := fullShare
  owed _ := 0

theorem A_eq2 (w : Fin cfg2.W) : (dat2 V c).A w = V c (Pipeline.arrRef spec2 w) := rfl

theorem after2_2 (t : Fin cfg2.N) : (dat2 V c).after 2 t = k2_pay3 (acc2 V c t.val t.isLt) := rfl

theorem before2_0 (t : Fin cfg2.N) (d) : (dat2 V c).before 0 t d = xa2 V c t :=
  ((dat2 V c).before_fetched 0 t (fetch2_0 t) d).trans rfl
theorem before2_1 (t : Fin cfg2.N) (d) : (dat2 V c).before 1 t d = xb2 V c t :=
  ((dat2 V c).before_fetched 1 t (fetch2_1 t) d).trans rfl

/-- The body at any point: `t mod 8` says which case runs; the invariant hands it the accumulator and takes it back at this point's contents. -/
theorem sound_body2 (t : Fin cfg2.N) :
    iprop((dat2 V c).Φ t.castSucc ∗ (dat2 V c).owesAt () t.castSucc
      ∗ (∃ d, owns (c : Thread nD τ) (ms2_0 t) fullShare ((dat2 V c).before 0 t d))
      ∗ (∃ d, owns (c : Thread nD τ) (ms2_1 t) fullShare ((dat2 V c).before 1 t d))
      ∗ (∃ d, owns (c : Thread nD τ) (ms2_2 t) fullShare ((dat2 V c).before 2 t d)))
    ⊢ wp frame (wpE (defs₀ (F := F)) Variants.none c none) Set.univ (bodyAt2 t) (fun _ =>
      iprop((dat2 V c).Φ t.succ ∗ (dat2 V c).owesAt () t.succ
        ∗ (dat2 V c).leavesExact 0 t ∗ (dat2 V c).leavesExact 1 t ∗ (dat2 V c).leavesExact 2 t)) := by
  obtain ⟨l0, l1, l2⟩ := idle2 t
  simp only [before2_0, before2_1]
  rw [show (dat2 V c).owesAt () t.succ = (dat2 V c).owesAt () t.castSucc from rfl,
    show (dat2 V c).Φ t.succ = iprop(iprop(owns (c : Thread nD τ) scM2 fullShare (acc2 V c t.val t.isLt) ∗ rest2 c) ∗ (∃ r, prngReg c r)) from rfl,
    show (dat2 V c).Φ t.castSucc = PhiS2 V c t.val (Nat.le_of_lt t.isLt) from rfl,
    show (dat2 V c).leavesExact 0 t = owns (c : Thread nD τ) (ms2_0 t) fullShare (xa2 V c t) from by unfold Dat.leavesExact; rw [l0]; rfl,
    show (dat2 V c).leavesExact 1 t = owns (c : Thread nD τ) (ms2_1 t) fullShare (xb2 V c t) from by unfold Dat.leavesExact; rw [l1]; rfl]
  by_cases h0 : t.val % 8 = 0
  · have h1 : ¬t.val % 8 = 7 := by omega
    rw [Dat.leavesExact_idle (dat2 V c) 2 t (l2.mpr h1) (Bool.eq_false_iff.mpr fun h => h1 ((flush2_2 t).mp h)), acc2_first V c t h0]
    refine (sep_mono (PhiS2_le V c _ _) .rfl).trans ?_
    rw [PhiA2_eq]
    exact call_framed (W := fun K => wp frame (wpE (defs₀ (F := F)) Variants.none c none) Set.univ (bodyAt2 t) K)
      (fun d K => (kernelRun2_A c (grid2.coords t) (ms2_0 t) (hs2_0 t) (ms2_1 t) (hs2_1 t) (ms2_2 t) (hs2_2 t) scM2 (Memref.isWhole_whole _) (xa2 V c t) (xb2 V c t)
        ((hcond2_0 t).mpr h0) (fun h => h1 ((hcond2_1 t).mp h))).2 ((dat2 V c).before 2 t d) K)
      .rfl (owns_of_writes (c : Thread nD τ) scM2 fullShare _ _ (accA2 c _ _ _ _ _ _ _ _ _ _ _ _ _)) fun d => BIClass.exists_intro (Φ := fun d => owns (c : Thread nD τ) (ms2_2 t) fullShare ((dat2 V c).before 2 t d)) d
  · have hz : t.val ≠ 0 := fun e => h0 (by rw [e])
    rw [PhiS2_pos V c _ _ hz, acc2_next V c t h0]
    by_cases h1 : t.val % 8 = 7
    · rw [show (dat2 V c).leavesExact 2 t = owns (c : Thread nD τ) (ms2_2 t) fullShare ((dat2 V c).after 2 t) from by
        unfold Dat.leavesExact; rw [Bool.eq_false_iff.mpr fun h => l2.mp h h1], after2_2, acc2_next V c t h0]
      exact call_framed (W := fun K => wp frame (wpE (defs₀ (F := F)) Variants.none c none) Set.univ (bodyAt2 t) K)
        (fun d K => (kernelRun2_C c (grid2.coords t) (ms2_0 t) (hs2_0 t) (ms2_1 t) (hs2_1 t) (ms2_2 t) (hs2_2 t) scM2 (Memref.isWhole_whole _) (xa2 V c t) (xb2 V c t)
          (fun h => h0 ((hcond2_0 t).mp h)) ((hcond2_1 t).mpr h1) _).2.2 ((dat2 V c).before 2 t d) K)
        .rfl (owns_of_writes (c : Thread nD τ) scM2 fullShare _ _ (accC2 c _ _ _ _ _ _ _ _ _ _ _ _ _ _)) fun _ => owns_of_writes (c : Thread nD τ) (ms2_2 t) fullShare _ _ (outC2 c _ _ _ _ _ _ _ _ _ _ _ _ _ _)
    · rw [Dat.leavesExact_idle (dat2 V c) 2 t (l2.mpr h1) (Bool.eq_false_iff.mpr fun h => h1 ((flush2_2 t).mp h))]
      exact call_framed (W := fun K => wp frame (wpE (defs₀ (F := F)) Variants.none c none) Set.univ (bodyAt2 t) K)
        (fun d K => (kernelRun2_B c (grid2.coords t) (ms2_0 t) (hs2_0 t) (ms2_1 t) (hs2_1 t) (ms2_2 t) (hs2_2 t) scM2 (Memref.isWhole_whole _) (xa2 V c t) (xb2 V c t)
          (fun h => h0 ((hcond2_0 t).mp h)) (fun h => h1 ((hcond2_1 t).mp h)) _).2 ((dat2 V c).before 2 t d) K)
        .rfl (owns_of_writes (c : Thread nD τ) scM2 fullShare _ _ (accB2 c _ _ _ _ _ _ _ _ _ _ _ _ _ _)) fun d => BIClass.exists_intro (Φ := fun d => owns (c : Thread nD τ) (ms2_2 t) fullShare ((dat2 V c).before 2 t d)) d

theorem body_obligation2 : BodyObligation (dat2 (F := F) V c) (defs₀ (F := F)) Variants.none () Set.univ := fun t => by
  rw [bigSep_W2, bigSep_W2]
  exact sound_body2 V c t

theorem hin2 : Pipeline.ΦA spec2 c ⊢ (dat2 V c).Φ 0 := .rfl

theorem hout2 : (dat2 V c).Φ (Fin.last cfg2.N) ⊢ Pipeline.ΦA spec2 c :=
  show PhiS2 V c cfg2.N (Nat.le_refl _) ⊢ _ from PhiS2_le V c _ _

end Cert.KernelIdeal.Fr

end
-- ==== Proof.KernelIdeal.Run.lean ====
import proofs.«154173_j9740985828005_1_alg».proof.Proof.KernelIdeal.R0Frame
import proofs.«154173_j9740985828005_1_alg».proof.Proof.KernelIdeal.R1Frame
import proofs.«154173_j9740985828005_1_alg».proof.Proof.KernelIdeal.R2Frame

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Memory at launch, then after each region: a region changes only its output array. -/
abbrev W0 : Dev nD → Valuation τ sig (Elt F) := fun c b => m (c, b)
abbrev rd (W : Dev nD → Valuation τ sig (Elt F)) : (c : Dev nD) → (b : Ref sig .tc) → Buf (Elt F) ((c : Thread nD τ).loc b) := fun c b => W c b
def W1 (c : Dev nD) : Valuation τ sig (Elt F) :=
  Pipeline.withArrays spec0 c (W0 m c) fun w => (dat0 (rd (W0 m)) c).arrAt w cfg0.N
def W2 (c : Dev nD) : Valuation τ sig (Elt F) :=
  Pipeline.withArrays spec1 c (W1 m c) fun w => (dat1 (rd (W1 m)) c).arrAt w cfg1.N
def W3 (c : Dev nD) : Valuation τ sig (Elt F) :=
  Pipeline.withArrays spec2 c (W2 m c) fun w => (dat2 (rd (W2 m)) c).arrAt w cfg2.N
abbrev E0 := rd (W0 m)
abbrev E1 := rd (W1 m)
abbrev E2 := rd (W2 m)

theorem W1_arr (c : Dev nD) (w : Fin cfg0.W) : W1 m c (Proc.devRef .tc (Pipeline.arrRef spec0 w)) = (dat0 (E0 m) c).arrAt w cfg0.N :=
  Pipeline.withArrays_arr spec0 launch0.win.arr_inj c _ _ w
theorem W1_of_ne (c : Dev nD) (b : Ref sig .tc) (hb : ∀ w, Pipeline.arrRef spec0 w ≠ b) : W1 m c (Proc.devRef .tc b) = W0 m c (Proc.devRef .tc b) :=
  Pipeline.withArrays_of_ne spec0 c _ _ b hb
theorem W2_arr (c : Dev nD) (w : Fin cfg1.W) : W2 m c (Proc.devRef .tc (Pipeline.arrRef spec1 w)) = (dat1 (E1 m) c).arrAt w cfg1.N :=
  Pipeline.withArrays_arr spec1 launch1.win.arr_inj c _ _ w
theorem W2_of_ne (c : Dev nD) (b : Ref sig .tc) (hb : ∀ w, Pipeline.arrRef spec1 w ≠ b) : W2 m c (Proc.devRef .tc b) = W1 m c (Proc.devRef .tc b) :=
  Pipeline.withArrays_of_ne spec1 c _ _ b hb
theorem W3_arr (c : Dev nD) (w : Fin cfg2.W) : W3 m c (Proc.devRef .tc (Pipeline.arrRef spec2 w)) = (dat2 (E2 m) c).arrAt w cfg2.N :=
  Pipeline.withArrays_arr spec2 launch2.win.arr_inj c _ _ w
theorem W3_of_ne (c : Dev nD) (b : Ref sig .tc) (hb : ∀ w, Pipeline.arrRef spec2 w ≠ b) : W3 m c (Proc.devRef .tc b) = W2 m c (Proc.devRef .tc b) :=
  Pipeline.withArrays_of_ne spec2 c _ _ b hb

/-- The arguments end as launched: a region reads one through an input window or passes it by. -/
theorem W3_main_arg0 (c : Dev nD) : W3 m c (Proc.devRef .tc main_arg0) = m ((c : Thread nD τ).loc main_arg0) :=
  (W3_of_ne m c main_arg0 (by decide)).trans <| (W2_of_ne m c main_arg0 (by decide)).trans <|
    (W1_arr m c 1).trans (((dat0 (E0 m) c).arrAt_in 1 rfl _).trans (A_eq0 (E0 m) c 1))
theorem W3_main_arg1 (c : Dev nD) : W3 m c (Proc.devRef .tc main_arg1) = m ((c : Thread nD τ).loc main_arg1) :=
  (W3_of_ne m c main_arg1 (by decide)).trans <| (W2_of_ne m c main_arg1 (by decide)).trans <|
    (W1_arr m c 0).trans (((dat0 (E0 m) c).arrAt_in 0 rfl _).trans (A_eq0 (E0 m) c 0))
theorem W3_main_arg2 (c : Dev nD) : W3 m c (Proc.devRef .tc main_arg2) = m ((c : Thread nD τ).loc main_arg2) :=
  (W3_of_ne m c main_arg2 (by decide)).trans <| ((W2_arr m c 1).trans (((dat1 (E1 m) c).arrAt_in 1 rfl _).trans (A_eq1 (E1 m) c 1))).trans <|
    W1_of_ne m c main_arg2 (by decide)

abbrev adm : (p : Fin 3) → (pcfgs (F := F) p).Adm := fun p => (cfgs p).toPCfg_adm
/-- Every region's proof data, each at the contents the region is entered with. -/
def pdats : (p : Fin 3) → (c : Dev nD) → Dat τ (Elt F) Unit ℕ (UR sig nD τ) ℕ (Pipeline.pin (pcfgs (F := F)) adm p) c
  | ⟨0, _⟩ => fun c => dat0 (E0 m) c
  | ⟨1, _⟩ => fun c => dat1 (E1 m) c
  | ⟨2, _⟩ => fun c => dat2 (E2 m) c
abbrev 𝒱₀ : Variants := Variants.none
abbrev L : GSem nD τ sig → Finset Unit := fun _ => ∅
abbrev lv : GSem nD τ sig → Unit → ℕ := fun _ _ => 0
abbrev T (W : Dev nD → Valuation τ sig (Elt F)) (c : Dev nD) : sProp 𝕄 :=
  iprop(iprop(StableHlo.held (c : Thread nD τ) (Pipeline.ucRefs τ sig) (W c) ∗ ∃ r, prngReg c r) ∗ ∃ Wo, owes (c : Thread nD τ) (0 : CellTallies nD τ sig Unit) Wo)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- One region as a step of @main from memory `Wi` to memory `Wo`, given its body obligation and that it changes only its own arrays. -/
def mkReg (p : Fin 3) (launch : Pipeline.LaunchFacts (nD := nD) (τ := τ) cfgs p) (Wi Wo : Dev nD → Valuation τ sig (Elt F))
    (hbody : ∀ c, BodyObligation (pdats m p c) (defs₀ (F := F)) 𝒱₀ () Set.univ)
    (hq : ∀ c w, (pdats m p c).share w = fullShare) (howed : ∀ c t, (pdats m p c).owed t = 0) (hrec : ∀ c, (pdats m p c).recorded 0 = Set.univ)
    (hA : ∀ c w, (pdats m p c).A w = rd Wi c (Pipeline.arrRef (Pipeline.pin (pcfgs (F := F)) adm p).spec w))
    (hF : ∀ c w, (pdats m p c).arrAt w (Pipeline.pin (pcfgs (F := F)) adm p).N = rd Wo c (Pipeline.arrRef (Pipeline.pin (pcfgs (F := F)) adm p).spec w))
    (hrest : ∀ c b, b ∉ Finset.univ.image (Pipeline.arrRef (Pipeline.pin (pcfgs (F := F)) adm p).spec) → rd Wo c b = rd Wi c b)
    (hin : ∀ c, Pipeline.ΦA (Pipeline.pin (pcfgs (F := F)) adm p).spec c ⊢ (pdats m p c).Φ 0)
    (hout : ∀ c, (pdats m p c).Φ (Fin.last (Pipeline.pin (pcfgs (F := F)) adm p).N) ⊢ Pipeline.ΦA (Pipeline.pin (pcfgs (F := F)) adm p).spec c) :
    Pipeline.RegionSeg (pcfgs (F := F)) adm (pdats m) () defs₀ 𝒱₀ L lv p where
  win := launch.win.to₀
  block_pos := launch.block_pos
  stage_whole := launch.stage_whole
  K := PEmpty
  osem k := k.elim
  ho := Pipeline.OwnSemFacts.none _
  hbody c := (hbody c).loose
  hwaits := Pipeline.hwaits_of_owed_zero _ _ _ _ L lv p howed
  pre := T Wi
  post := T Wo
  X c := iprop(∃ r, prngReg c r)
  Y c := iprop(∃ r, prngReg c r)
  Z c := Pipeline.unscopedRest (Ix := Unit) (Name := ℕ) (U := UR sig nD τ) (Lvl := ℕ) (Pipeline.pin (pcfgs (F := F)) adm p).spec c (rd Wi c)
  hentry c := by
    rw [Pipeline.ownSems0_none]
    have hsplit := Pipeline.arrays_of_unscopedBufs (p := p) (pcfgs (F := F)) adm (pdats m) launch.win launch.arr_whole c (hq c) (rd Wi c) (hA c)
    rw [Pipeline.unscopedBufs_held] at hsplit
    iintro ⟨⟨⟨Hub, Hp⟩, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed c 0]
      icases HO with ⟨%W, HO⟩; iexists W; isplitr; · ipureintro; exact fun _ _ => Or.inl (hrec c ▸ trivial)
      iexact HO
    isplitl [Hp]; · iexact Hp
    iexact Hrest
  hin c := by
    have h := hin c
    unfold Pipeline.ΦA at h
    iintro ⟨Hp, -, Hr⟩
    iapply h
    isplitl [Hr]; · iexact Hr
    iexact Hp
  hout c := by
    rw [Pipeline.ownSems0_none]
    have h := hout c
    unfold Pipeline.ΦA at h
    iintro H
    ihave H' := h $$ H
    icases H' with ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      launch.win launch.arr_whole c (pdats m) (hq c) (rd Wi c) (rd Wo c) ((pdats m p c).arrAt · (Pipeline.pin (pcfgs (F := F)) adm p).N) (hF c) (hrest c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    rw [howed c _]
    icases HO with ⟨%W, -, HO⟩; iexists W; iexact HO

def reg0 : Pipeline.RegionSeg (pcfgs (F := F)) adm (pdats m) () defs₀ 𝒱₀ L lv 0 :=
  mkReg m 0 launch0 (W0 m) (W1 m) (body_obligation0 (E0 m)) (fun c => (pdats m 0 c).share_full fun _ => rfl) (fun _ _ => rfl) (fun _ => rfl) (fun _ _ => rfl)
    (fun c w => (W1_arr m c w).symm) (fun c b hb => W1_of_ne m c b fun w e => hb (Finset.mem_image.mpr ⟨w, Finset.mem_univ _, e⟩)) (hin0 (E0 m)) (hout0 (E0 m))
def reg1 : Pipeline.RegionSeg (pcfgs (F := F)) adm (pdats m) () defs₀ 𝒱₀ L lv 1 :=
  mkReg m 1 launch1 (W1 m) (W2 m) (body_obligation1 (E1 m)) (fun c => (pdats m 1 c).share_full fun _ => rfl) (fun _ _ => rfl) (fun _ => rfl) (fun _ _ => rfl)
    (fun c w => (W2_arr m c w).symm) (fun c b hb => W2_of_ne m c b fun w e => hb (Finset.mem_image.mpr ⟨w, Finset.mem_univ _, e⟩)) (hin1 (E1 m)) (hout1 (E1 m))
def reg2 : Pipeline.RegionSeg (pcfgs (F := F)) adm (pdats m) () defs₀ 𝒱₀ L lv 2 :=
  mkReg m 2 launch2 (W2 m) (W3 m) (body_obligation2 (E2 m)) (fun c => (pdats m 2 c).share_full fun _ => rfl) (fun _ _ => rfl) (fun _ => rfl) (fun _ _ => rfl)
    (fun c w => (W3_arr m c w).symm) (fun c b hb => W3_of_ne m c b fun w e => hb (Finset.mem_image.mpr ⟨w, Finset.mem_univ _, e⟩)) (hin2 (E2 m)) (hout2 (E2 m))

abbrev segs : List (Pipeline.Seg (pcfgs (F := F)) adm (pdats m) () defs₀ 𝒱₀ L lv) :=
  [ .region (reg0 m), .region (reg1 m), .region (reg2 m) ]

theorem main_run (c : Dev nD) : main (F := F) c = Pipeline.Seg.run (segs m) := (main_chain c).trans (by chain_rfl)

set_option backward.isDefEq.respectTransparency.types false in
/-- Every weakly fair execution of @main terminates, nothing faulting, with memory at `W3`. -/
theorem run_main (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := T (W0 m)) (Tₙ := fun c => iprop(StableHlo.held (c : Thread nD τ) (Pipeline.ucRefs τ sig) (W3 m c) ∗ ∃ r, prngReg c r))
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh Hp]
      · isplitl [Hh]; · iexact Hh
        iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h => h)

/-- The argument arrays end as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_arg0 (by decide))).trans (W3_main_arg0 m c),
     (h c _ (mem_uc main_arg1 (by decide))).trans (W3_main_arg1 m c),
     (h c _ (mem_uc main_arg2 (by decide))).trans (W3_main_arg2 m c)⟩) (run_main m ρ)

end Cert.KernelIdeal.Fr

end
-- ==== Proof.Spec.lean ====
import Idealize.ShloMosaic.PureOps.Ideal
import Idealize.ShloMosaic.PureOps.Ideal.Laws
import Idealize.ShloMosaic.Lib.ValueIdx
import Mathlib.Algebra.BigOperators.Group.Finset.Defs
import Mathlib.Data.Fintype.BigOperators
import Mathlib.Logic.Equiv.Fin.Basic

noncomputable section

namespace Cert.Spec

open Idealize.ShloMosaic Idealize.ShloMosaic.ValueIdx
open scoped BigOperators

abbrev Sq : Shape := ⟨2, ![8192, 8192]⟩
abbrev Tl : Shape := ⟨2, ![8192, 256]⟩

def adj (att inp : Sq.Idx → EReal) : Sq.Idx → EReal :=
  fun j => ∑ e : Fin 8192, att (ix2 (j 0) e) * inp (ix2 e (j 1))

def tmp (a : Sq.Idx → EReal) (embs : Tl.Idx → EReal) : Tl.Idx → EReal :=
  fun j => ∑ i : Fin 8192, a (ix2 i (j 0)) * embs (ix2 i (j 1))

def prod (a : Sq.Idx → EReal) (t : Tl.Idx → EReal) : Tl.Idx → EReal :=
  fun j => ∑ k : Fin 8192, a (ix2 (j 0) k) * t (ix2 k (j 1))

def leaky (x : EReal) : EReal :=
  Scalar.select (FloatOps.cmpf (F := Ideal) (φ := .f32) .ogt x (FloatOps.ofBits (F := Ideal) .f32 0x00000000#32)) x
    (FloatOps.mulf (F := Ideal) (φ := .f32) (FloatOps.ofBits (F := Ideal) .f32 0x3E4CCCCD#32) x)

def out (att inp : Sq.Idx → EReal) (embs : Tl.Idx → EReal) : Tl.Idx → EReal :=
  fun j => leaky (prod (adj att inp) (tmp (adj att inp) embs) j)

theorem sum_blocks (f : ℕ → EReal) :
    ∑ k ∈ Finset.range 8, ∑ q : Fin 1024, f (1024 * k + q.val) = ∑ e : Fin 8192, f e.val := by

  have hR : ∑ e : Fin (8 * 1024), f e.val
      = ∑ a : Fin 8, ∑ b : Fin 1024, f (1024 * a.val + b.val) := by
    rw [← (finProdFinEquiv (m := 8) (n := 1024)).sum_comp (fun e => f e.val), Fintype.sum_prod_type]
    refine Finset.sum_congr rfl fun a _ => Finset.sum_congr rfl fun b _ => ?_
    simp only [finProdFinEquiv_apply_val]
    rw [Nat.add_comm]

  rw [← Fin.sum_univ_eq_sum_range (fun k => ∑ q : Fin 1024, f (1024 * k + q.val)) 8]
  exact hR.symm

end Cert.Spec

end
-- ==== Proof.KernelIdeal.PayIdx.lean ====
import proofs.«154173_j9740985828005_1_alg».proof.Proof.Gen.KernelIdeal.Skeleton
import proofs.«154173_j9740985828005_1_alg».proof.Proof.Spec
import Idealize.ShloMosaic.PureOps.Ideal.Laws
import Idealize.ShloMosaic.Lib.ValueIdx
import Idealize.ShloMosaic.Lib.Pipeline.Value

noncomputable section

namespace Cert.KernelIdeal.Fr

open Cert.KernelIdeal Cert.KernelIdeal.Gen
open Idealize.ShloMosaic Idealize.ShloMosaic.ValueIdx
open scoped BigOperators

theorem lhs_sq_0 (i : S1024x1024.Idx) (q : dot_S1024x1024_S1024x1024_S1024x1024_1_0_0_1_n_n.contr.Idx) :
    (dot_S1024x1024_S1024x1024_S1024x1024_1_0_0_1_n_n.lhsIdx i q 0).val = (i 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl
theorem lhs_sq_1 (i : S1024x1024.Idx) (q : dot_S1024x1024_S1024x1024_S1024x1024_1_0_0_1_n_n.contr.Idx) :
    (dot_S1024x1024_S1024x1024_S1024x1024_1_0_0_1_n_n.lhsIdx i q 1).val = (q ⟨0, by decide⟩).val :=
  dot_S1024x1024_S1024x1024_S1024x1024_1_0_0_1_n_n.lhsIdx_val_of_single rfl i q
theorem rhs_sq_0 (i : S1024x1024.Idx) (q : dot_S1024x1024_S1024x1024_S1024x1024_1_0_0_1_n_n.contr.Idx) :
    (dot_S1024x1024_S1024x1024_S1024x1024_1_0_0_1_n_n.rhsIdx i q 0).val = (q ⟨0, by decide⟩).val :=
  dot_S1024x1024_S1024x1024_S1024x1024_1_0_0_1_n_n.rhsIdx_val_of_single rfl i q
theorem rhs_sq_1 (i : S1024x1024.Idx) (q : dot_S1024x1024_S1024x1024_S1024x1024_1_0_0_1_n_n.contr.Idx) :
    (dot_S1024x1024_S1024x1024_S1024x1024_1_0_0_1_n_n.rhsIdx i q 1).val = (i 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl

theorem matmul_sq_apply {φ₁ φ₂ : FTy} (a : FVec Ideal S1024x1024 φ₁) (b : FVec Ideal S1024x1024 φ₂) (p : Fin 1024) (q : Fin 1024) :
    FloatOps.matmul dot_S1024x1024_S1024x1024_S1024x1024_1_0_0_1_n_n none a b (constant (F := Ideal) S1024x1024 .f32 0x00000000#32) (ix2 p q)
      = ∑ e : Fin 1024, a (ix2 p e) * b (ix2 e q) := by
  rw [Ideal.matmul_constant_zero_apply, ← Equiv.sum_comp (ValueIdx.contrEquiv1 dot_S1024x1024_S1024x1024_S1024x1024_1_0_0_1_n_n 1024 rfl rfl).symm]
  refine Finset.sum_congr rfl fun k _ => ?_
  have hk := ValueIdx.contrEquiv1_symm_val dot_S1024x1024_S1024x1024_S1024x1024_1_0_0_1_n_n 1024 rfl rfl k
  have el : dot_S1024x1024_S1024x1024_S1024x1024_1_0_0_1_n_n.lhsIdx (ix2 p q) ((ValueIdx.contrEquiv1 dot_S1024x1024_S1024x1024_S1024x1024_1_0_0_1_n_n 1024 rfl rfl).symm k) = ix2 p k := funext fun a => Fin.ext (by
    match a with
    | ⟨0, _⟩ => exact lhs_sq_0 _ _
    | ⟨1, _⟩ => exact (lhs_sq_1 _ _).trans hk)
  have er : dot_S1024x1024_S1024x1024_S1024x1024_1_0_0_1_n_n.rhsIdx (ix2 p q) ((ValueIdx.contrEquiv1 dot_S1024x1024_S1024x1024_S1024x1024_1_0_0_1_n_n 1024 rfl rfl).symm k) = ix2 k q := funext fun a => Fin.ext (by
    match a with
    | ⟨0, _⟩ => exact (rhs_sq_0 _ _).trans hk
    | ⟨1, _⟩ => exact rhs_sq_1 _ _)
  rw [el, er]

theorem lhs_tall_0 (i : S1024x256.Idx) (q : dot_S1024x1024_S1024x256_S1024x256_1_0_0_1_n_n.contr.Idx) :
    (dot_S1024x1024_S1024x256_S1024x256_1_0_0_1_n_n.lhsIdx i q 0).val = (i 0).val := by
  unfold DotDims.lhsIdx
  rw [dif_neg (show ¬(0 : Fin S1024x1024.rank) ∈ dot_S1024x1024_S1024x256_S1024x256_1_0_0_1_n_n.lhsBatch by decide), dif_pos (show (0 : Fin S1024x1024.rank) ∈ dot_S1024x1024_S1024x256_S1024x256_1_0_0_1_n_n.lhsNonContracting by decide)]
  rfl
theorem lhs_tall_1 (i : S1024x256.Idx) (q : dot_S1024x1024_S1024x256_S1024x256_1_0_0_1_n_n.contr.Idx) :
    (dot_S1024x1024_S1024x256_S1024x256_1_0_0_1_n_n.lhsIdx i q 1).val = (q ⟨0, by decide⟩).val :=
  dot_S1024x1024_S1024x256_S1024x256_1_0_0_1_n_n.lhsIdx_val_of_single rfl i q
theorem rhs_tall_0 (i : S1024x256.Idx) (q : dot_S1024x1024_S1024x256_S1024x256_1_0_0_1_n_n.contr.Idx) :
    (dot_S1024x1024_S1024x256_S1024x256_1_0_0_1_n_n.rhsIdx i q 0).val = (q ⟨0, by decide⟩).val :=
  dot_S1024x1024_S1024x256_S1024x256_1_0_0_1_n_n.rhsIdx_val_of_single rfl i q
theorem rhs_tall_1 (i : S1024x256.Idx) (q : dot_S1024x1024_S1024x256_S1024x256_1_0_0_1_n_n.contr.Idx) :
    (dot_S1024x1024_S1024x256_S1024x256_1_0_0_1_n_n.rhsIdx i q 1).val = (i 1).val := by
  unfold DotDims.rhsIdx
  rw [dif_neg (show ¬(1 : Fin S1024x256.rank) ∈ dot_S1024x1024_S1024x256_S1024x256_1_0_0_1_n_n.rhsBatch by decide), dif_pos (show (1 : Fin S1024x256.rank) ∈ dot_S1024x1024_S1024x256_S1024x256_1_0_0_1_n_n.rhsNonContracting by decide)]
  rfl

theorem matmul_tall_apply {φ₁ φ₂ : FTy} (a : FVec Ideal S1024x1024 φ₁) (b : FVec Ideal S1024x256 φ₂) (p : Fin 1024) (q : Fin 256) :
    FloatOps.matmul dot_S1024x1024_S1024x256_S1024x256_1_0_0_1_n_n none a b (constant (F := Ideal) S1024x256 .f32 0x00000000#32) (ix2 p q)
      = ∑ e : Fin 1024, a (ix2 p e) * b (ix2 e q) := by
  rw [Ideal.matmul_constant_zero_apply, ← Equiv.sum_comp (ValueIdx.contrEquiv1 dot_S1024x1024_S1024x256_S1024x256_1_0_0_1_n_n 1024 rfl rfl).symm]
  refine Finset.sum_congr rfl fun k _ => ?_
  have hk := ValueIdx.contrEquiv1_symm_val dot_S1024x1024_S1024x256_S1024x256_1_0_0_1_n_n 1024 rfl rfl k
  have el : dot_S1024x1024_S1024x256_S1024x256_1_0_0_1_n_n.lhsIdx (ix2 p q) ((ValueIdx.contrEquiv1 dot_S1024x1024_S1024x256_S1024x256_1_0_0_1_n_n 1024 rfl rfl).symm k) = ix2 p k := funext fun a => Fin.ext (by
    match a with
    | ⟨0, _⟩ => exact lhs_tall_0 _ _
    | ⟨1, _⟩ => exact (lhs_tall_1 _ _).trans hk)
  have er : dot_S1024x1024_S1024x256_S1024x256_1_0_0_1_n_n.rhsIdx (ix2 p q) ((ValueIdx.contrEquiv1 dot_S1024x1024_S1024x256_S1024x256_1_0_0_1_n_n 1024 rfl rfl).symm k) = ix2 k q := funext fun a => Fin.ext (by
    match a with
    | ⟨0, _⟩ => exact (rhs_tall_0 _ _).trans hk
    | ⟨1, _⟩ => exact rhs_tall_1 _ _)
  rw [el, er]

theorem pay1_0_apply (y : S1024x1024.Idx) : k0_pay1 (F := Ideal) y = 0 := by
  unfold k0_pay1
  rw [shapeCast_self, broadcast_apply]
  exact Ideal.ofBits_zero_f32

theorem pay2_0_apply (x0 x1 acc : Vec Ideal S1024x1024 .f32) (p q : Fin 1024) :
    k0_pay2 (F := Ideal) x0 x1 acc (ix2 p q) = acc (ix2 p q) + ∑ e : Fin 1024, x0 (ix2 p e) * x1 (ix2 e q) := by
  unfold k0_pay2
  rw [shapeCast_self, addf_apply]
  simp only [matmul]
  rw [matmul_sq_apply]
  rfl

theorem pay3_0_apply (a : Vec Ideal S1024x1024 .f32) (y : S1024x1024.Idx) : k0_pay3 (F := Ideal) a y = a y := by
  rfl

theorem pay1_1_apply (y : S1024x256.Idx) : k1_pay1 (F := Ideal) y = 0 := by
  unfold k1_pay1
  rw [shapeCast_self, broadcast_apply]
  exact Ideal.ofBits_zero_f32

theorem pay2_1_apply (x0 : Vec Ideal S1024x1024 .bf16) (x1 : Vec Ideal S1024x256 .f32) (acc : Vec Ideal S1024x256 .f32) (p : Fin 1024) (q : Fin 256) :
    k1_pay2 (F := Ideal) x0 x1 acc (ix2 p q) = acc (ix2 p q) + ∑ e : Fin 1024, x0 (ix2 e p) * x1 (ix2 e q) := by
  unfold k1_pay2
  rw [shapeCast_self, addf_apply, shapeCast_self]
  simp only [matmul]
  rw [matmul_tall_apply]
  refine congrArg (acc (ix2 p q) + ·) (Finset.sum_congr rfl fun e _ => ?_)

  rw [transpose_apply [1, 0] x0 transposes_S1024x1024_p1_0_S1024x1024 (ix2 p e) (ix2 e p) (fun b => match b with
    | ⟨0, _⟩ => rfl
    | ⟨1, _⟩ => rfl)]
  rfl

theorem pay3_1_apply (a : Vec Ideal S1024x256 .f32) (y : S1024x256.Idx) : k1_pay3 (F := Ideal) a y = a y := by
  rfl

theorem pay1_2_apply (y : S1024x256.Idx) : k2_pay1 (F := Ideal) y = 0 := by
  unfold k2_pay1
  rw [shapeCast_self, broadcast_apply]
  exact Ideal.ofBits_zero_f32

theorem pay2_2_apply (acc : Vec Ideal S1024x256 .f32) (x0 : Vec Ideal S1024x1024 .bf16) (x1 : Vec Ideal S1024x256 .bf16) (p : Fin 1024) (q : Fin 256) :
    k2_pay2 (F := Ideal) acc x0 x1 (ix2 p q) = acc (ix2 p q) + ∑ e : Fin 1024, x0 (ix2 p e) * x1 (ix2 e q) := by
  unfold k2_pay2
  rw [shapeCast_self, addf_apply, shapeCast_self, shapeCast_self]
  simp only [matmul]
  rw [matmul_tall_apply]

theorem pay3_2_apply (a : Vec Ideal S1024x256 .f32) (y : S1024x256.Idx) : k2_pay3 (F := Ideal) a y = Cert.Spec.leaky (a y) := by
  rfl

end Cert.KernelIdeal.Fr

end
-- ==== Proof.SpecIdx.lean ====
import proofs.«154173_j9740985828005_1_alg».proof.Proof.Spec

noncomputable section

namespace Cert.Spec

open Idealize.ShloMosaic Idealize.ShloMosaic.ValueIdx
open scoped BigOperators

def at2 {n0 n1 : Nat} (A : (⟨2, ![n0, n1]⟩ : Shape).Idx → EReal) (r c : ℕ) : EReal :=
  if h : r < n0 ∧ c < n1 then A (ix2 ⟨r, h.1⟩ ⟨c, h.2⟩) else 0

theorem at2_ix2 {n0 n1 : Nat} (A : (⟨2, ![n0, n1]⟩ : Shape).Idx → EReal) (a : Fin n0) (b : Fin n1) :
    at2 A a.val b.val = A (ix2 a b) := by
  unfold at2; rw [dif_pos ⟨a.isLt, b.isLt⟩]

theorem at2_of_lt {n0 n1 : Nat} (A : (⟨2, ![n0, n1]⟩ : Shape).Idx → EReal) (r c : ℕ) (hr : r < n0) (hc : c < n1) :
    at2 A r c = A (ix2 ⟨r, hr⟩ ⟨c, hc⟩) := by
  unfold at2; rw [dif_pos ⟨hr, hc⟩]

theorem at2_of_idx {n0 n1 : Nat} (A : (⟨2, ![n0, n1]⟩ : Shape).Idx → EReal) (j : (⟨2, ![n0, n1]⟩ : Shape).Idx) (r c : ℕ)
    (h0 : (j 0).val = r) (h1 : (j 1).val = c) : A j = at2 A r c := by
  subst h0; subst h1
  rw [at2_of_lt A _ _ (idx2_lt0 j) (idx2_lt1 j)]
  exact congrArg A (eq_ix2 j)

theorem adj_apply (att inp : Sq.Idx → EReal) (j : Sq.Idx) :
    adj att inp j = ∑ e : Fin 8192, at2 att (j 0).val e.val * at2 inp e.val (j 1).val := by
  unfold adj
  refine Finset.sum_congr rfl fun e _ => ?_
  rw [at2_of_lt att _ _ (idx2_lt0 j) e.isLt, at2_of_lt inp _ _ e.isLt (idx2_lt1 j)]
  rfl

theorem tmp_apply (a : Sq.Idx → EReal) (embs : Tl.Idx → EReal) (j : Tl.Idx) :
    tmp a embs j = ∑ i : Fin 8192, at2 a i.val (j 0).val * at2 embs i.val (j 1).val := by
  unfold tmp
  refine Finset.sum_congr rfl fun i _ => ?_
  rw [at2_of_lt a _ _ i.isLt (idx2_lt0 j), at2_of_lt embs _ _ i.isLt (idx2_lt1 j)]
  rfl

theorem prod_apply (a : Sq.Idx → EReal) (t : Tl.Idx → EReal) (j : Tl.Idx) :
    prod a t j = ∑ k : Fin 8192, at2 a (j 0).val k.val * at2 t k.val (j 1).val := by
  unfold prod
  refine Finset.sum_congr rfl fun k _ => ?_
  rw [at2_of_lt a _ _ (idx2_lt0 j) k.isLt, at2_of_lt t _ _ k.isLt (idx2_lt1 j)]
  rfl

end Cert.Spec

end
-- ==== Proof.KernelIdeal.Blocks.lean ====
import proofs.«154173_j9740985828005_1_alg».proof.Proof.KernelIdeal.R0Runs
import proofs.«154173_j9740985828005_1_alg».proof.Proof.KernelIdeal.R1Runs
import proofs.«154173_j9740985828005_1_alg».proof.Proof.KernelIdeal.R2Runs
import proofs.«154173_j9740985828005_1_alg».proof.Proof.SpecIdx
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.ValueIdx
open Idealize.SL.Sem
open scoped BigOperators

variable (V : (c : Dev nD) → (b : Ref sig .tc) → Buf (Elt Ideal) ((c : Thread nD τ).loc b))

theorem blockIdx0_0 : ∀ t : Fin cfg0.N, win0_0.index t (0 : Fin 2) = t.val / 64 ∧ win0_0.index t (1 : Fin 2) = t.val % 8 :=
  (by decide +kernel : ∀ t : Fin grid0.N, _)

theorem blockIdx0_1 : ∀ t : Fin cfg0.N, win0_1.index t (0 : Fin 2) = t.val % 8 ∧ win0_1.index t (1 : Fin 2) = t.val / 8 % 8 :=
  (by decide +kernel : ∀ t : Fin grid0.N, _)

theorem blockIdx1_0 : ∀ t : Fin cfg1.N, win1_0.index t (0 : Fin 2) = t.val % 8 ∧ win1_0.index t (1 : Fin 2) = t.val / 8 :=
  (by decide +kernel : ∀ t : Fin grid1.N, _)

theorem blockIdx1_1 : ∀ t : Fin cfg1.N, win1_1.index t (0 : Fin 2) = t.val % 8 ∧ win1_1.index t (1 : Fin 2) = 0 :=
  (by decide +kernel : ∀ t : Fin grid1.N, _)

theorem blockIdx2_0 : ∀ t : Fin cfg2.N, win2_0.index t (0 : Fin 2) = t.val / 8 ∧ win2_0.index t (1 : Fin 2) = t.val % 8 :=
  (by decide +kernel : ∀ t : Fin grid2.N, _)

theorem blockIdx2_1 : ∀ t : Fin cfg2.N, win2_1.index t (0 : Fin 2) = t.val % 8 ∧ win2_1.index t (1 : Fin 2) = 0 :=
  (by decide +kernel : ∀ t : Fin grid2.N, _)

theorem iblk0_0_apply (c : Dev nD) (g r : ℕ) (hr : r < 8) (hn : 8 * g + r < cfg0.N) (p q : Fin 1024) :
    (iblk0 V c 0 ⟨8 * g + r, hn⟩ : Vec Ideal S1024x1024 .f32) (ix2 p q)
      = Cert.Spec.at2 (V c main_arg1) (1024 * (g / 8) + p.val) (1024 * r + q.val) := by
  obtain ⟨e0, e1⟩ := blockIdx0_0 ⟨8 * g + r, hn⟩
  unfold iblk0
  show V c main_arg1 (((cfg0.win 0).blk ⟨8 * g + r, hn⟩).view.emb (ix2 p q)) = _
  refine Cert.Spec.at2_of_idx _ _ _ _ ?_ ?_
  ·
    show win0_0.index ⟨8 * g + r, hn⟩ (0 : Fin 2) * 1024 + 1 * p.val = _
    rw [e0]
    show (8 * g + r) / 64 * 1024 + 1 * p.val = _
    have : (8 * g + r) / 64 = g / 8 := by omega
    omega
  ·
    show win0_0.index ⟨8 * g + r, hn⟩ (1 : Fin 2) * 1024 + 1 * q.val = _
    rw [e1]
    show (8 * g + r) % 8 * 1024 + 1 * q.val = _
    omega

theorem iblk0_1_apply (c : Dev nD) (g r : ℕ) (hr : r < 8) (hn : 8 * g + r < cfg0.N) (p q : Fin 1024) :
    (iblk0 V c 1 ⟨8 * g + r, hn⟩ : Vec Ideal S1024x1024 .f32) (ix2 p q)
      = Cert.Spec.at2 (V c main_arg0) (1024 * r + p.val) (1024 * (g % 8) + q.val) := by
  obtain ⟨e0, e1⟩ := blockIdx0_1 ⟨8 * g + r, hn⟩
  unfold iblk0
  show V c main_arg0 (((cfg0.win 1).blk ⟨8 * g + r, hn⟩).view.emb (ix2 p q)) = _
  refine Cert.Spec.at2_of_idx _ _ _ _ ?_ ?_
  ·
    show win0_1.index ⟨8 * g + r, hn⟩ (0 : Fin 2) * 1024 + 1 * p.val = _
    rw [e0]
    show (8 * g + r) % 8 * 1024 + 1 * p.val = _
    omega
  ·
    show win0_1.index ⟨8 * g + r, hn⟩ (1 : Fin 2) * 1024 + 1 * q.val = _
    rw [e1]
    show (8 * g + r) / 8 % 8 * 1024 + 1 * q.val = _
    have : (8 * g + r) / 8 = g := by omega
    rw [this]
    omega

theorem iblk1_0_apply (c : Dev nD) (g r : ℕ) (hr : r < 8) (hn : 8 * g + r < cfg1.N) (p q : Fin 1024) :
    (iblk1 V c 0 ⟨8 * g + r, hn⟩ : Vec Ideal S1024x1024 .bf16) (ix2 p q)
      = Cert.Spec.at2 (V c main_v0) (1024 * r + p.val) (1024 * g + q.val) := by
  obtain ⟨e0, e1⟩ := blockIdx1_0 ⟨8 * g + r, hn⟩
  unfold iblk1
  show V c main_v0 (((cfg1.win 0).blk ⟨8 * g + r, hn⟩).view.emb (ix2 p q)) = _
  refine Cert.Spec.at2_of_idx _ _ _ _ ?_ ?_
  ·
    show win1_0.index ⟨8 * g + r, hn⟩ (0 : Fin 2) * 1024 + 1 * p.val = _
    rw [e0]
    show (8 * g + r) % 8 * 1024 + 1 * p.val = _
    omega
  ·
    show win1_0.index ⟨8 * g + r, hn⟩ (1 : Fin 2) * 1024 + 1 * q.val = _
    rw [e1]
    show (8 * g + r) / 8 * 1024 + 1 * q.val = _
    have : (8 * g + r) / 8 = g := by omega
    omega

theorem iblk1_1_apply (c : Dev nD) (g r : ℕ) (hr : r < 8) (hn : 8 * g + r < cfg1.N) (p : Fin 1024) (q : Fin 256) :
    (iblk1 V c 1 ⟨8 * g + r, hn⟩ : Vec Ideal S1024x256 .f32) (ix2 p q)
      = Cert.Spec.at2 (V c main_arg2) (1024 * r + p.val) q.val := by
  obtain ⟨e0, e1⟩ := blockIdx1_1 ⟨8 * g + r, hn⟩
  unfold iblk1
  show V c main_arg2 (((cfg1.win 1).blk ⟨8 * g + r, hn⟩).view.emb (ix2 p q)) = _
  refine Cert.Spec.at2_of_idx _ _ _ _ ?_ ?_
  ·
    show win1_1.index ⟨8 * g + r, hn⟩ (0 : Fin 2) * 1024 + 1 * p.val = _
    rw [e0]
    show (8 * g + r) % 8 * 1024 + 1 * p.val = _
    omega
  ·
    show win1_1.index ⟨8 * g + r, hn⟩ (1 : Fin 2) * 256 + 1 * q.val = _
    rw [e1]
    omega

theorem iblk2_0_apply (c : Dev nD) (g r : ℕ) (hr : r < 8) (hn : 8 * g + r < cfg2.N) (p q : Fin 1024) :
    (iblk2 V c 0 ⟨8 * g + r, hn⟩ : Vec Ideal S1024x1024 .bf16) (ix2 p q)
      = Cert.Spec.at2 (V c main_v0) (1024 * g + p.val) (1024 * r + q.val) := by
  obtain ⟨e0, e1⟩ := blockIdx2_0 ⟨8 * g + r, hn⟩
  unfold iblk2
  show V c main_v0 (((cfg2.win 0).blk ⟨8 * g + r, hn⟩).view.emb (ix2 p q)) = _
  refine Cert.Spec.at2_of_idx _ _ _ _ ?_ ?_
  ·
    show win2_0.index ⟨8 * g + r, hn⟩ (0 : Fin 2) * 1024 + 1 * p.val = _
    rw [e0]
    show (8 * g + r) / 8 * 1024 + 1 * p.val = _
    have : (8 * g + r) / 8 = g := by omega
    omega
  ·
    show win2_0.index ⟨8 * g + r, hn⟩ (1 : Fin 2) * 1024 + 1 * q.val = _
    rw [e1]
    show (8 * g + r) % 8 * 1024 + 1 * q.val = _
    omega

theorem iblk2_1_apply (c : Dev nD) (g r : ℕ) (hr : r < 8) (hn : 8 * g + r < cfg2.N) (p : Fin 1024) (q : Fin 256) :
    (iblk2 V c 1 ⟨8 * g + r, hn⟩ : Vec Ideal S1024x256 .bf16) (ix2 p q)
      = Cert.Spec.at2 (V c main_v1) (1024 * r + p.val) q.val := by
  obtain ⟨e0, e1⟩ := blockIdx2_1 ⟨8 * g + r, hn⟩
  unfold iblk2
  show V c main_v1 (((cfg2.win 1).blk ⟨8 * g + r, hn⟩).view.emb (ix2 p q)) = _
  refine Cert.Spec.at2_of_idx _ _ _ _ ?_ ?_
  ·
    show win2_1.index ⟨8 * g + r, hn⟩ (0 : Fin 2) * 1024 + 1 * p.val = _
    rw [e0]
    show (8 * g + r) % 8 * 1024 + 1 * p.val = _
    omega
  ·
    show win2_1.index ⟨8 * g + r, hn⟩ (1 : Fin 2) * 256 + 1 * q.val = _
    rw [e1]
    omega

end Cert.KernelIdeal.Fr

end
-- ==== Proof.KernelIdeal.R0Value.lean ====
import proofs.«154173_j9740985828005_1_alg».proof.Proof.KernelIdeal.R0Frame
import proofs.«154173_j9740985828005_1_alg».proof.Proof.KernelIdeal.PayIdx
import proofs.«154173_j9740985828005_1_alg».proof.Proof.KernelIdeal.Blocks
import proofs.«154173_j9740985828005_1_alg».proof.Proof.SpecIdx
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.ValueIdx
open Idealize.SL.Sem
open Idealize.ShloMosaic.Pipeline (Dat)
open scoped BigOperators

variable (V : (c : Dev nD) → (b : Ref sig .tc) → Buf (Elt Ideal) ((c : Thread nD τ).loc b))

/-- The partial product over the first `n` blocks of the contracted axis, at entry `(p, q)` of output block `g = 8·i + j`. -/
def part0 (c : Dev nD) (g n : ℕ) (p q : Fin 1024) : EReal :=
  ∑ k ∈ Finset.range n, ∑ e : Fin 1024,
    Cert.Spec.at2 (V c main_arg1) (1024 * (g / 8) + p.val) (1024 * k + e.val) * Cert.Spec.at2 (V c main_arg0) (1024 * k + e.val) (1024 * (g % 8) + q.val)

theorem term0 (c : Dev nD) (g r : ℕ) (hr : r < 8) (hn : 8 * g + r < cfg0.N) (p q : Fin 1024) :
    ∑ e : Fin 1024, xa0 V c ⟨8 * g + r, hn⟩ (ix2 p e) * xb0 V c ⟨8 * g + r, hn⟩ (ix2 e q)
      = ∑ e : Fin 1024, Cert.Spec.at2 (V c main_arg1) (1024 * (g / 8) + p.val) (1024 * r + e.val) * Cert.Spec.at2 (V c main_arg0) (1024 * r + e.val) (1024 * (g % 8) + q.val) :=
  Finset.sum_congr rfl fun e _ => by
    rw [show xa0 V c ⟨8 * g + r, hn⟩ (ix2 p e) = _ from iblk0_0_apply V c g r hr hn p e,
      show xb0 V c ⟨8 * g + r, hn⟩ (ix2 e q) = _ from iblk0_1_apply V c g r hr hn e q]

/-- After point `8·g + r` the accumulator holds the partial product over the first `r + 1` blocks: each point adds its blocks' product. -/
theorem acc0_apply (c : Dev nD) (g : ℕ) : ∀ (r : ℕ) (hr : r < 8) (hn : 8 * g + r < cfg0.N) (p q : Fin 1024),
    (acc0 V c (8 * g + r) hn : Vec Ideal S1024x1024 .f32) (ix2 p q) = part0 V c g (r + 1) p q
  | 0, hr, hn, p, q => by
    rw [show acc0 V c (8 * g + 0) hn = _ from acc0_first V c ⟨8 * g + 0, hn⟩ (by show (8 * g + 0) % 8 = 0; omega)]
    unfold upd0 part0
    rw [pay2_0_apply, pay1_0_apply, zero_add, term0 V c g 0 hr hn p q, Finset.sum_range_one]
  | r + 1, hr, hn, p, q => by
    have ih := acc0_apply c g r (by omega) (by omega) p q
    rw [show acc0 V c (8 * g + (r + 1)) hn = _ from acc0_next V c ⟨8 * g + (r + 1), hn⟩ (by show ¬(8 * g + (r + 1)) % 8 = 0; omega)]
    unfold upd0
    rw [pay2_0_apply, term0 V c g (r + 1) hr hn p q]
    unfold part0 at ih ⊢
    rw [Finset.sum_range_succ _ (r + 1), ← ih]
    rfl

/-- All eight blocks make the whole sum over the contracted axis, an entry of `att · inp`. -/
theorem part0_full (c : Dev nD) (g : ℕ) (p q : Fin 1024) (j : Cert.Spec.Sq.Idx)
    (h0 : (j 0).val = 1024 * (g / 8) + p.val) (h1 : (j 1).val = 1024 * (g % 8) + q.val) :
    part0 V c g 8 p q = Cert.Spec.adj (V c main_arg1) (V c main_arg0) j := by
  unfold part0
  rw [Cert.Spec.adj_apply, h0, h1]
  exact Cert.Spec.sum_blocks fun e => Cert.Spec.at2 (V c main_arg1) (1024 * (g / 8) + p.val) e * Cert.Spec.at2 (V c main_arg0) e (1024 * (g % 8) + q.val)

theorem idx0_2 : ∀ t : Fin cfg0.N, win0_2.index t (0 : Fin 2) = t.val / 64 ∧ win0_2.index t (1 : Fin 2) = t.val / 8 % 8 :=
  (by decide +kernel : ∀ t : Fin grid0.N, win0_2.index t (0 : Fin 2) = t.val / 64 ∧ win0_2.index t (1 : Fin 2) = t.val / 8 % 8)

/-- What a point with `k = 7` writes back is its block of `att · inp`. -/
theorem flushed0_eq (c : Dev nD) (t : Fin cfg0.N) (hf : (cfg0.win 2).flush t = true) :
    (dat0 V c).flushed 2 t = ((cfg0.win 2).blk t).view.read (Elt Ideal) (Cert.Spec.adj (V c main_arg1) (V c main_arg0)) := by
  have h7 : t.val % 8 = 7 := (flush0_2 t).mp hf
  obtain ⟨e0, e1⟩ := idx0_2 t
  obtain ⟨n, hn⟩ := t
  obtain ⟨g, rfl⟩ : ∃ g, n = 8 * g + 7 := ⟨n / 8, by have : n % 8 = 7 := h7; omega⟩
  show (cfg0.win 2).cut (grid0.coords ⟨8 * g + 7, hn⟩) ((dat0 V c).after 2 ⟨8 * g + 7, hn⟩) = _
  rw [after0_2]
  funext y
  obtain ⟨p, q, rfl⟩ : ∃ (p q : Fin 1024), y = ix2 p q := ⟨y 0, y 1, eq_ix2 y⟩
  show (k0_pay3 (acc0 V c (8 * g + 7) hn) : Vec Ideal S1024x1024 .bf16) (ix2 p q)
    = Cert.Spec.adj (V c main_arg1) (V c main_arg0) (((cfg0.win 2).blk ⟨8 * g + 7, hn⟩).view.emb (ix2 p q))
  rw [pay3_0_apply, acc0_apply V c g 7 (by omega) hn p q]
  refine part0_full V c g p q _ ?_ ?_
  · show win0_2.index ⟨8 * g + 7, hn⟩ (0 : Fin 2) * 1024 + 1 * p.val = _
    rw [e0]; show (8 * g + 7) / 64 * 1024 + 1 * p.val = _; omega
  · show win0_2.index ⟨8 * g + 7, hn⟩ (1 : Fin 2) * 1024 + 1 * q.val = _
    rw [e1]; show (8 * g + 7) / 8 % 8 * 1024 + 1 * q.val = _; omega

theorem mem_blk0 (t : Fin cfg0.N) (i : S8192x8192.Idx) :
    i ∈ ((cfg0.win 2).blk t).view.set ↔ ∀ a : Fin 2, win0_2.index t a * S1024x1024.size a ≤ (i a).val ∧ (i a).val < win0_2.index t a * S1024x1024.size a + S1024x1024.size a := by
  show i ∈ ((View.whole main_v0).slice (win0_2.rect t)).set ↔ _
  rw [View.set_slice_whole, Rect.mem_set_unit]
  exact Iff.rfl

/-- The 64 blocks written back tile the output array. -/
theorem cover0 (i : S8192x8192.Idx) : ∃ t : Fin cfg0.N, (cfg0.win 2).flush t = true ∧ i ∈ ((cfg0.win 2).blk t).view.set := by
  have hi0 : (i 0).val < 8192 := idx2_lt0 i
  have hi1 : (i 1).val < 8192 := idx2_lt1 i
  have hN : cfg0.N = 512 := N_0
  have hlt : ((i 0).val / 1024 * 8 + (i 1).val / 1024) * 8 + 7 < cfg0.N := by omega
  refine ⟨⟨((i 0).val / 1024 * 8 + (i 1).val / 1024) * 8 + 7, hlt⟩, (flush0_2 _).mpr (by show (((i 0).val / 1024 * 8 + (i 1).val / 1024) * 8 + 7) % 8 = 7; omega), ?_⟩
  obtain ⟨e0, e1⟩ := idx0_2 ⟨((i 0).val / 1024 * 8 + (i 1).val / 1024) * 8 + 7, hlt⟩
  rw [mem_blk0]
  intro a
  match a with
  | ⟨0, _⟩ =>
    show win0_2.index ⟨_, hlt⟩ (0 : Fin 2) * 1024 ≤ (i 0).val ∧ (i 0).val < win0_2.index ⟨_, hlt⟩ (0 : Fin 2) * 1024 + 1024
    rw [e0]; show (((i 0).val / 1024 * 8 + (i 1).val / 1024) * 8 + 7) / 64 * 1024 ≤ (i 0).val ∧ (i 0).val < (((i 0).val / 1024 * 8 + (i 1).val / 1024) * 8 + 7) / 64 * 1024 + 1024
    omega
  | ⟨1, _⟩ =>
    show win0_2.index ⟨_, hlt⟩ (1 : Fin 2) * 1024 ≤ (i 1).val ∧ (i 1).val < win0_2.index ⟨_, hlt⟩ (1 : Fin 2) * 1024 + 1024
    rw [e1]; show (((i 0).val / 1024 * 8 + (i 1).val / 1024) * 8 + 7) / 8 % 8 * 1024 ≤ (i 1).val ∧ (i 1).val < (((i 0).val / 1024 * 8 + (i 1).val / 1024) * 8 + 7) / 8 % 8 * 1024 + 1024
    omega

/-- The output array after the region is `att · inp`. -/
theorem final0 (c : Dev nD) : (dat0 V c).arrAt 2 cfg0.N = Cert.Spec.adj (V c main_arg1) (V c main_arg0) :=
  (dat0 V c).arrAt_eq_of_cover 2 _ (fun t hf => flushed0_eq V c t hf) cover0

end Cert.KernelIdeal.Fr

end
-- ==== Proof.KernelIdeal.R1Value.lean ====
import proofs.«154173_j9740985828005_1_alg».proof.Proof.KernelIdeal.R1Frame
import proofs.«154173_j9740985828005_1_alg».proof.Proof.KernelIdeal.PayIdx
import proofs.«154173_j9740985828005_1_alg».proof.Proof.KernelIdeal.Blocks
import proofs.«154173_j9740985828005_1_alg».proof.Proof.SpecIdx
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.ValueIdx
open Idealize.SL.Sem
open Idealize.ShloMosaic.Pipeline (Dat)
open scoped BigOperators

variable (V : (c : Dev nD) → (b : Ref sig .tc) → Buf (Elt Ideal) ((c : Thread nD τ).loc b))

/-- The product of the two arrays' entries met at position `e` of the contracted axis, for entry `(p, q)` of output block `g`. -/
def summ1 (c : Dev nD) (g : ℕ) (p : Fin 1024) (q : Fin 256) (e : ℕ) : EReal := Cert.Spec.at2 (V c main_v0) e (1024 * g + p.val) * Cert.Spec.at2 (V c main_arg2) e q.val

/-- The partial product over the first `n` blocks of the contracted axis. -/
def part1 (c : Dev nD) (g n : ℕ) (p : Fin 1024) (q : Fin 256) : EReal :=
  ∑ k ∈ Finset.range n, ∑ e : Fin 1024, summ1 V c g p q (1024 * k + e.val)

theorem term1 (c : Dev nD) (g r : ℕ) (hr : r < 8) (hn : 8 * g + r < cfg1.N) (p : Fin 1024) (q : Fin 256) :
    ∑ e : Fin 1024, xa1 V c ⟨8 * g + r, hn⟩ (ix2 e p) * xb1 V c ⟨8 * g + r, hn⟩ (ix2 e q)
      = ∑ e : Fin 1024, summ1 V c g p q (1024 * r + e.val) :=
  Finset.sum_congr rfl fun e _ => by
    rw [show xa1 V c ⟨8 * g + r, hn⟩ (ix2 e p) = _ from iblk1_0_apply V c g r hr hn e p,
      show xb1 V c ⟨8 * g + r, hn⟩ (ix2 e q) = _ from iblk1_1_apply V c g r hr hn e q]
    rfl

/-- After point `8·g + r` the accumulator holds the partial product over the first `r + 1` blocks: each point adds its blocks' product. -/
theorem acc1_apply (c : Dev nD) (g : ℕ) : ∀ (r : ℕ) (hr : r < 8) (hn : 8 * g + r < cfg1.N) (p : Fin 1024) (q : Fin 256),
    (acc1 V c (8 * g + r) hn : Vec Ideal S1024x256 .f32) (ix2 p q) = part1 V c g (r + 1) p q
  | 0, hr, hn, p, q => by
    rw [show acc1 V c (8 * g + 0) hn = _ from acc1_first V c ⟨8 * g + 0, hn⟩ (by show (8 * g + 0) % 8 = 0; omega)]
    unfold upd1 part1
    rw [pay2_1_apply, pay1_1_apply, zero_add, term1 V c g 0 hr hn p q, Finset.sum_range_one]
  | r + 1, hr, hn, p, q => by
    have ih := acc1_apply c g r (by omega) (by omega) p q
    rw [show acc1 V c (8 * g + (r + 1)) hn = _ from acc1_next V c ⟨8 * g + (r + 1), hn⟩ (by show ¬(8 * g + (r + 1)) % 8 = 0; omega)]
    unfold upd1
    rw [pay2_1_apply, term1 V c g (r + 1) hr hn p q]
    unfold part1 at ih ⊢
    rw [Finset.sum_range_succ _ (r + 1), ← ih]
    rfl

/-- All eight blocks make the whole sum over the contracted axis. -/
theorem part1_full (c : Dev nD) (g : ℕ) (p : Fin 1024) (q : Fin 256) (j : Cert.Spec.Tl.Idx)
    (h0 : (j 0).val = 1024 * g + p.val) (h1 : (j 1).val = q.val) :
    part1 V c g 8 p q = Cert.Spec.tmp (V c main_v0) (V c main_arg2) j := by
  unfold part1
  rw [Cert.Spec.tmp_apply, h0, h1]
  exact Cert.Spec.sum_blocks (summ1 V c g p q)

theorem idx1_2 : ∀ t : Fin cfg1.N, win1_2.index t (0 : Fin 2) = t.val / 8 ∧ win1_2.index t (1 : Fin 2) = 0 :=
  (by decide +kernel : ∀ t : Fin grid1.N, win1_2.index t (0 : Fin 2) = t.val / 8 ∧ win1_2.index t (1 : Fin 2) = 0)

/-- What a point with `k = 7` writes back is its block of the result. -/
theorem flushed1_eq (c : Dev nD) (t : Fin cfg1.N) (hf : (cfg1.win 2).flush t = true) :
    (dat1 V c).flushed 2 t = ((cfg1.win 2).blk t).view.read (Elt Ideal) (Cert.Spec.tmp (V c main_v0) (V c main_arg2)) := by
  have h7 : t.val % 8 = 7 := (flush1_2 t).mp hf
  obtain ⟨e0, e1⟩ := idx1_2 t
  obtain ⟨n, hn⟩ := t
  obtain ⟨g, rfl⟩ : ∃ g, n = 8 * g + 7 := ⟨n / 8, by have : n % 8 = 7 := h7; omega⟩
  show (cfg1.win 2).cut (grid1.coords ⟨8 * g + 7, hn⟩) ((dat1 V c).after 2 ⟨8 * g + 7, hn⟩) = _
  rw [after1_2]
  funext y
  obtain ⟨p, q, rfl⟩ : ∃ (p : Fin 1024) (q : Fin 256), y = ix2 p q := ⟨y 0, y 1, eq_ix2 y⟩
  show (k1_pay3 (acc1 V c (8 * g + 7) hn) : Vec Ideal S1024x256 .bf16) (ix2 p q)
    = (Cert.Spec.tmp (V c main_v0) (V c main_arg2)) (((cfg1.win 2).blk ⟨8 * g + 7, hn⟩).view.emb (ix2 p q))
  rw [pay3_1_apply, acc1_apply V c g 7 (by omega) hn p q]
  refine part1_full V c g p q _ ?_ ?_
  · show win1_2.index ⟨8 * g + 7, hn⟩ (0 : Fin 2) * 1024 + 1 * p.val = _
    rw [e0]; show (8 * g + 7) / 8 * 1024 + 1 * p.val = _; omega
  · show win1_2.index ⟨8 * g + 7, hn⟩ (1 : Fin 2) * 256 + 1 * q.val = _
    rw [e1]; omega

theorem mem_blk1 (t : Fin cfg1.N) (i : S8192x256.Idx) :
    i ∈ ((cfg1.win 2).blk t).view.set ↔ ∀ a : Fin 2, win1_2.index t a * S1024x256.size a ≤ (i a).val ∧ (i a).val < win1_2.index t a * S1024x256.size a + S1024x256.size a := by
  show i ∈ ((View.whole main_v1).slice (win1_2.rect t)).set ↔ _
  rw [View.set_slice_whole, Rect.mem_set_unit]
  exact Iff.rfl

/-- The 8 blocks written back tile the output array. -/
theorem cover1 (i : S8192x256.Idx) : ∃ t : Fin cfg1.N, (cfg1.win 2).flush t = true ∧ i ∈ ((cfg1.win 2).blk t).view.set := by
  have hi0 : (i 0).val < 8192 := idx2_lt0 i
  have hi1 : (i 1).val < 256 := idx2_lt1 i
  have hN : cfg1.N = 64 := N_1
  have hlt : (i 0).val / 1024 * 8 + 7 < cfg1.N := by omega
  refine ⟨⟨(i 0).val / 1024 * 8 + 7, hlt⟩, (flush1_2 _).mpr (by show ((i 0).val / 1024 * 8 + 7) % 8 = 7; omega), ?_⟩
  obtain ⟨e0, e1⟩ := idx1_2 ⟨(i 0).val / 1024 * 8 + 7, hlt⟩
  rw [mem_blk1]
  intro a
  match a with
  | ⟨0, _⟩ =>
    show win1_2.index ⟨_, hlt⟩ (0 : Fin 2) * 1024 ≤ (i 0).val ∧ (i 0).val < win1_2.index ⟨_, hlt⟩ (0 : Fin 2) * 1024 + 1024
    rw [e0]; show ((i 0).val / 1024 * 8 + 7) / 8 * 1024 ≤ (i 0).val ∧ (i 0).val < ((i 0).val / 1024 * 8 + 7) / 8 * 1024 + 1024
    omega
  | ⟨1, _⟩ =>
    show win1_2.index ⟨_, hlt⟩ (1 : Fin 2) * 256 ≤ (i 1).val ∧ (i 1).val < win1_2.index ⟨_, hlt⟩ (1 : Fin 2) * 256 + 256
    rw [e1]; omega

/-- The output array after the region. -/
theorem final1 (c : Dev nD) : (dat1 V c).arrAt 2 cfg1.N = Cert.Spec.tmp (V c main_v0) (V c main_arg2) :=
  (dat1 V c).arrAt_eq_of_cover 2 _ (fun t hf => flushed1_eq V c t hf) cover1

end Cert.KernelIdeal.Fr

end
-- ==== Proof.KernelIdeal.R2Value.lean ====
import proofs.«154173_j9740985828005_1_alg».proof.Proof.KernelIdeal.R2Frame
import proofs.«154173_j9740985828005_1_alg».proof.Proof.KernelIdeal.PayIdx
import proofs.«154173_j9740985828005_1_alg».proof.Proof.KernelIdeal.Blocks
import proofs.«154173_j9740985828005_1_alg».proof.Proof.SpecIdx
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.ValueIdx
open Idealize.SL.Sem
open Idealize.ShloMosaic.Pipeline (Dat)
open scoped BigOperators

variable (V : (c : Dev nD) → (b : Ref sig .tc) → Buf (Elt Ideal) ((c : Thread nD τ).loc b))

/-- The product of the two arrays' entries met at position `e` of the contracted axis, for entry `(p, q)` of output block `g`. -/
def summ2 (c : Dev nD) (g : ℕ) (p : Fin 1024) (q : Fin 256) (e : ℕ) : EReal := Cert.Spec.at2 (V c main_v0) (1024 * g + p.val) e * Cert.Spec.at2 (V c main_v1) e q.val

/-- The partial product over the first `n` blocks of the contracted axis. -/
def part2 (c : Dev nD) (g n : ℕ) (p : Fin 1024) (q : Fin 256) : EReal :=
  ∑ k ∈ Finset.range n, ∑ e : Fin 1024, summ2 V c g p q (1024 * k + e.val)

theorem term2 (c : Dev nD) (g r : ℕ) (hr : r < 8) (hn : 8 * g + r < cfg2.N) (p : Fin 1024) (q : Fin 256) :
    ∑ e : Fin 1024, xa2 V c ⟨8 * g + r, hn⟩ (ix2 p e) * xb2 V c ⟨8 * g + r, hn⟩ (ix2 e q)
      = ∑ e : Fin 1024, summ2 V c g p q (1024 * r + e.val) :=
  Finset.sum_congr rfl fun e _ => by
    rw [show xa2 V c ⟨8 * g + r, hn⟩ (ix2 p e) = _ from iblk2_0_apply V c g r hr hn p e,
      show xb2 V c ⟨8 * g + r, hn⟩ (ix2 e q) = _ from iblk2_1_apply V c g r hr hn e q]
    rfl

/-- After point `8·g + r` the accumulator holds the partial product over the first `r + 1` blocks: each point adds its blocks' product. -/
theorem acc2_apply (c : Dev nD) (g : ℕ) : ∀ (r : ℕ) (hr : r < 8) (hn : 8 * g + r < cfg2.N) (p : Fin 1024) (q : Fin 256),
    (acc2 V c (8 * g + r) hn : Vec Ideal S1024x256 .f32) (ix2 p q) = part2 V c g (r + 1) p q
  | 0, hr, hn, p, q => by
    rw [show acc2 V c (8 * g + 0) hn = _ from acc2_first V c ⟨8 * g + 0, hn⟩ (by show (8 * g + 0) % 8 = 0; omega)]
    unfold upd2 part2
    rw [pay2_2_apply, pay1_2_apply, zero_add, term2 V c g 0 hr hn p q, Finset.sum_range_one]
  | r + 1, hr, hn, p, q => by
    have ih := acc2_apply c g r (by omega) (by omega) p q
    rw [show acc2 V c (8 * g + (r + 1)) hn = _ from acc2_next V c ⟨8 * g + (r + 1), hn⟩ (by show ¬(8 * g + (r + 1)) % 8 = 0; omega)]
    unfold upd2
    rw [pay2_2_apply, term2 V c g (r + 1) hr hn p q]
    unfold part2 at ih ⊢
    rw [Finset.sum_range_succ _ (r + 1), ← ih]
    rfl

/-- All eight blocks make the whole sum over the contracted axis. -/
theorem part2_full (c : Dev nD) (g : ℕ) (p : Fin 1024) (q : Fin 256) (j : Cert.Spec.Tl.Idx)
    (h0 : (j 0).val = 1024 * g + p.val) (h1 : (j 1).val = q.val) :
    part2 V c g 8 p q = Cert.Spec.prod (V c main_v0) (V c main_v1) j := by
  unfold part2
  rw [Cert.Spec.prod_apply, h0, h1]
  exact Cert.Spec.sum_blocks (summ2 V c g p q)

theorem idx2_2 : ∀ t : Fin cfg2.N, win2_2.index t (0 : Fin 2) = t.val / 8 ∧ win2_2.index t (1 : Fin 2) = 0 :=
  (by decide +kernel : ∀ t : Fin grid2.N, win2_2.index t (0 : Fin 2) = t.val / 8 ∧ win2_2.index t (1 : Fin 2) = 0)

/-- What a point with `k = 7` writes back is its block of the result. -/
theorem flushed2_eq (c : Dev nD) (t : Fin cfg2.N) (hf : (cfg2.win 2).flush t = true) :
    (dat2 V c).flushed 2 t = ((cfg2.win 2).blk t).view.read (Elt Ideal) (fun j => Cert.Spec.leaky (Cert.Spec.prod (V c main_v0) (V c main_v1) j)) := by
  have h7 : t.val % 8 = 7 := (flush2_2 t).mp hf
  obtain ⟨e0, e1⟩ := idx2_2 t
  obtain ⟨n, hn⟩ := t
  obtain ⟨g, rfl⟩ : ∃ g, n = 8 * g + 7 := ⟨n / 8, by have : n % 8 = 7 := h7; omega⟩
  show (cfg2.win 2).cut (grid2.coords ⟨8 * g + 7, hn⟩) ((dat2 V c).after 2 ⟨8 * g + 7, hn⟩) = _
  rw [after2_2]
  funext y
  obtain ⟨p, q, rfl⟩ : ∃ (p : Fin 1024) (q : Fin 256), y = ix2 p q := ⟨y 0, y 1, eq_ix2 y⟩
  show (k2_pay3 (acc2 V c (8 * g + 7) hn) : Vec Ideal S1024x256 .f32) (ix2 p q)
    = (fun j => Cert.Spec.leaky (Cert.Spec.prod (V c main_v0) (V c main_v1) j)) (((cfg2.win 2).blk ⟨8 * g + 7, hn⟩).view.emb (ix2 p q))
  rw [pay3_2_apply, acc2_apply V c g 7 (by omega) hn p q]
  refine congrArg Cert.Spec.leaky (part2_full V c g p q _ ?_ ?_)
  · show win2_2.index ⟨8 * g + 7, hn⟩ (0 : Fin 2) * 1024 + 1 * p.val = _
    rw [e0]; show (8 * g + 7) / 8 * 1024 + 1 * p.val = _; omega
  · show win2_2.index ⟨8 * g + 7, hn⟩ (1 : Fin 2) * 256 + 1 * q.val = _
    rw [e1]; omega

theorem mem_blk2 (t : Fin cfg2.N) (i : S8192x256.Idx) :
    i ∈ ((cfg2.win 2).blk t).view.set ↔ ∀ a : Fin 2, win2_2.index t a * S1024x256.size a ≤ (i a).val ∧ (i a).val < win2_2.index t a * S1024x256.size a + S1024x256.size a := by
  show i ∈ ((View.whole main_v2).slice (win2_2.rect t)).set ↔ _
  rw [View.set_slice_whole, Rect.mem_set_unit]
  exact Iff.rfl

/-- The 8 blocks written back tile the output array. -/
theorem cover2 (i : S8192x256.Idx) : ∃ t : Fin cfg2.N, (cfg2.win 2).flush t = true ∧ i ∈ ((cfg2.win 2).blk t).view.set := by
  have hi0 : (i 0).val < 8192 := idx2_lt0 i
  have hi1 : (i 1).val < 256 := idx2_lt1 i
  have hN : cfg2.N = 64 := N_2
  have hlt : (i 0).val / 1024 * 8 + 7 < cfg2.N := by omega
  refine ⟨⟨(i 0).val / 1024 * 8 + 7, hlt⟩, (flush2_2 _).mpr (by show ((i 0).val / 1024 * 8 + 7) % 8 = 7; omega), ?_⟩
  obtain ⟨e0, e1⟩ := idx2_2 ⟨(i 0).val / 1024 * 8 + 7, hlt⟩
  rw [mem_blk2]
  intro a
  match a with
  | ⟨0, _⟩ =>
    show win2_2.index ⟨_, hlt⟩ (0 : Fin 2) * 1024 ≤ (i 0).val ∧ (i 0).val < win2_2.index ⟨_, hlt⟩ (0 : Fin 2) * 1024 + 1024
    rw [e0]; show ((i 0).val / 1024 * 8 + 7) / 8 * 1024 ≤ (i 0).val ∧ (i 0).val < ((i 0).val / 1024 * 8 + 7) / 8 * 1024 + 1024
    omega
  | ⟨1, _⟩ =>
    show win2_2.index ⟨_, hlt⟩ (1 : Fin 2) * 256 ≤ (i 1).val ∧ (i 1).val < win2_2.index ⟨_, hlt⟩ (1 : Fin 2) * 256 + 256
    rw [e1]; omega

/-- The output array after the region. -/
theorem final2 (c : Dev nD) : (dat2 V c).arrAt 2 cfg2.N = fun j => Cert.Spec.leaky (Cert.Spec.prod (V c main_v0) (V c main_v1) j) :=
  (dat2 V c).arrAt_eq_of_cover 2 _ (fun t hf => flushed2_eq V c t hf) cover2

end Cert.KernelIdeal.Fr

end
-- ==== Proof.KernelIdeal.Value.lean ====
import proofs.«154173_j9740985828005_1_alg».proof.Proof.KernelIdeal.Run
import proofs.«154173_j9740985828005_1_alg».proof.Proof.KernelIdeal.R0Value
import proofs.«154173_j9740985828005_1_alg».proof.Proof.KernelIdeal.R1Value
import proofs.«154173_j9740985828005_1_alg».proof.Proof.KernelIdeal.R2Value

set_option maxRecDepth 16384

noncomputable section

namespace Cert.KernelIdeal.Fr

open Cert.KernelIdeal Cert.KernelIdeal.Gen
open Idealize.ShloMosaic Idealize.ShloMosaic.TcCoe
open Idealize.SL.Sem
open Idealize.ShloMosaic.Pipeline (Dat)

variable (m : (ℓ : Loc nD τ sig) → Buf (Elt Ideal) ℓ)

theorem E1_main_v0 (c : Dev nD) :
    E1 m c main_v0 = Cert.Spec.adj (m ((c : Thread nD τ).loc main_arg1)) (m ((c : Thread nD τ).loc main_arg0)) :=
  (W1_arr m c 2).trans (final0 (E0 m) c)

theorem E1_main_arg2 (c : Dev nD) : E1 m c main_arg2 = m ((c : Thread nD τ).loc main_arg2) :=
  W1_of_ne m c main_arg2 (by decide)

theorem E2_main_v0 (c : Dev nD) : E2 m c main_v0 = E1 m c main_v0 :=
  (W2_arr m c 0).trans (((dat1 (E1 m) c).arrAt_in 0 rfl _).trans (A_eq1 (E1 m) c 0))

theorem E2_main_v1 (c : Dev nD) : E2 m c main_v1 = Cert.Spec.tmp (E1 m c main_v0) (E1 m c main_arg2) :=
  (W2_arr m c 2).trans (final1 (E1 m) c)

theorem result (c : Dev nD) :
    W3 m c (Proc.devRef .tc main_v2)
      = Cert.Spec.out (m ((c : Thread nD τ).loc main_arg1)) (m ((c : Thread nD τ).loc main_arg0)) (m ((c : Thread nD τ).loc main_arg2)) := by
  refine (W3_arr m c 2).trans ((final2 (E2 m) c).trans ?_)
  rw [E2_main_v0, E2_main_v1, E1_main_v0, E1_main_arg2]
  rfl

theorem run_value (ρ : Dev nD → PrngReg) :
    θ_run defs (onTc (τ := τ) (main (F := Ideal))) ⟨m, fun _ => 0, ρ⟩ (fun r => ∀ c : Dev nD,
      r.2.mem ((c.tc : Thread nD τ).loc main_v2)
        = Cert.Spec.out (m ((c.tc : Thread nD τ).loc main_arg1)) (m ((c.tc : Thread nD τ).loc main_arg0)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_v2 (by decide))).trans (result m c),
     (h c _ (mem_uc main_arg0 (by decide))).trans (W3_main_arg0 m c),
     (h c _ (mem_uc main_arg1 (by decide))).trans (W3_main_arg1 m c),
     (h c _ (mem_uc main_arg2 (by decide))).trans (W3_main_arg2 m c)⟩) (run_main m ρ)

end Cert.KernelIdeal.Fr

end
-- ==== Proof.RefValue.lean ====
import proofs.«154173_j9740985828005_1_alg».proof.Proof.Gen.ReferenceIdeal.Run
import proofs.«154173_j9740985828005_1_alg».proof.Proof.Gen.ReferenceIdeal.Read
import proofs.«154173_j9740985828005_1_alg».proof.Proof.Spec

noncomputable section

namespace Cert.ReferenceIdeal.RefValue

open Cert.ReferenceIdeal Cert.ReferenceIdeal.Gen Idealize.ShloMosaic Idealize.ShloMosaic.ValueIdx
open scoped BigOperators

theorem lidx0 (j : S8192x8192.Idx) (k : Fin 8192) : Read.lidx_main_v0 j k = ix2 (j 0) k :=
  funext fun a => by match a with | ⟨0, _⟩ => rfl | ⟨1, _⟩ => rfl

theorem ridx0 (j : S8192x8192.Idx) (k : Fin 8192) : Read.ridx_main_v0 j k = ix2 k (j 1) :=
  funext fun a => by match a with | ⟨0, _⟩ => rfl | ⟨1, _⟩ => rfl

theorem idx1_lidx2 (j : S8192x256.Idx) (k : Fin 8192) : Read.idx_main_v1 (Read.lidx_main_v2 j k) = ix2 k (j 0) :=
  funext fun a => by match a with | ⟨0, _⟩ => rfl | ⟨1, _⟩ => rfl

theorem ridx2 (j : S8192x256.Idx) (k : Fin 8192) : Read.ridx_main_v2 j k = ix2 k (j 1) :=
  funext fun a => by match a with | ⟨0, _⟩ => rfl | ⟨1, _⟩ => rfl

theorem lidx3 (j : S8192x256.Idx) (k : Fin 8192) : Read.lidx_main_v3 j k = ix2 (j 0) k :=
  funext fun a => by match a with | ⟨0, _⟩ => rfl | ⟨1, _⟩ => rfl

theorem ridx3 (j : S8192x256.Idx) (k : Fin 8192) : Read.ridx_main_v3 j k = ix2 k (j 1) :=
  funext fun a => by match a with | ⟨0, _⟩ => rfl | ⟨1, _⟩ => rfl

theorem v0_eq (x0 x1 : (⟨S8192x8192, .f32⟩ : BufTy).Contents (Elt Ideal)) :
    Read.val_main_v0 (F := Ideal) x0 x1 = Cert.Spec.adj x1 x0 := by
  funext j
  rw [Read.val_main_v0_apply]
  unfold Cert.Spec.adj
  refine Finset.sum_congr rfl fun k _ => ?_
  rw [lidx0, ridx0]
  rfl

theorem v2_eq (x0 x1 : (⟨S8192x8192, .f32⟩ : BufTy).Contents (Elt Ideal)) (x2 : (⟨S8192x256, .f32⟩ : BufTy).Contents (Elt Ideal)) :
    Read.val_main_v2 (F := Ideal) x0 x1 x2 = Cert.Spec.tmp (Cert.Spec.adj x1 x0) x2 := by
  funext j
  rw [Read.val_main_v2_apply]
  unfold Cert.Spec.tmp
  refine Finset.sum_congr rfl fun k _ => ?_
  rw [Read.val_main_v1_apply, v0_eq, idx1_lidx2, ridx2]
  rfl

theorem v3_eq (x0 x1 : (⟨S8192x8192, .f32⟩ : BufTy).Contents (Elt Ideal)) (x2 : (⟨S8192x256, .f32⟩ : BufTy).Contents (Elt Ideal)) :
    Read.val_main_v3 (F := Ideal) x0 x1 x2
      = Cert.Spec.prod (Cert.Spec.adj x1 x0) (Cert.Spec.tmp (Cert.Spec.adj x1 x0) x2) := by
  funext j
  rw [Read.val_main_v3_apply]
  unfold Cert.Spec.prod
  refine Finset.sum_congr rfl fun k _ => ?_
  rw [v0_eq, v2_eq, lidx3, ridx3]
  rfl

theorem ref_eq (x0 x1 : (⟨S8192x8192, .f32⟩ : BufTy).Contents (Elt Ideal)) (x2 : (⟨S8192x256, .f32⟩ : BufTy).Contents (Elt Ideal)) :
    Cert.ReferenceIdeal.Read.val_main_v8 (F := Ideal) x0 x1 x2 = Cert.Spec.out x1 x0 x2 := by
  funext i

  rw [Read.val_main_v8_apply, Read.val_main_v5_apply, Read.val_main_v7_apply, Read.val_main_v6_apply,
    Read.val_main_cst_0_apply, Read.val_main_v4_apply, Read.val_main_cst_apply, v3_eq]
  rfl

end Cert.ReferenceIdeal.RefValue

end
-- ==== Proof.lean ====
import proofs.«154173_j9740985828005_1_alg».proof.Defs
import proofs.«154173_j9740985828005_1_alg».proof.Proof.Gen.Kernel
import proofs.«154173_j9740985828005_1_alg».proof.Proof.Gen.KernelIdeal
import proofs.«154173_j9740985828005_1_alg».proof.Proof.Gen.ReferenceIdeal
import proofs.«154173_j9740985828005_1_alg».proof.Proof.Gen.Pre_finite_inputs
import proofs.«154173_j9740985828005_1_alg».proof.Proof.Gen.ReferenceIdeal.Run
import proofs.«154173_j9740985828005_1_alg».proof.Proof.Gen.ReferenceIdeal.Read
import proofs.«154173_j9740985828005_1_alg».proof.Proof.Kernel.Run
import proofs.«154173_j9740985828005_1_alg».proof.Proof.KernelIdeal.Value
import proofs.«154173_j9740985828005_1_alg».proof.Proof.RefValue

noncomputable section

namespace Cert.Proof

open Idealize.ShloMosaic Idealize.ShloMosaic.TcCoe Idealize.SL.Sem

theorem frame_k : Cert.frame_Kernel := fun m ρ _ => Cert.Kernel.Fr.frame (F := Bits) m ρ

theorem frame_ki : Cert.frame_KernelIdeal := fun m ρ _ => Cert.KernelIdeal.Fr.frame (F := Ideal) m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

theorem algebraic : Cert.algebraic_KernelIdeal_ReferenceIdeal := by
  intro m ρ m' ρ' _ hagree
  refine ⟨_, Cert.KernelIdeal.Fr.run_value m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  exact (Cert.ReferenceIdeal.Read.val_main_v8_eq _ _ _).trans (Cert.ReferenceIdeal.RefValue.ref_eq _ _ _)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
